-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_v23) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S250000x256 : Shape := ⟨2, ![250000, 256]⟩
abbrev S25000x64 : Shape := ⟨2, ![25000, 64]⟩
abbrev S50000x128 : Shape := ⟨2, ![50000, 128]⟩
abbrev S75000x64 : Shape := ⟨2, ![75000, 64]⟩
abbrev S150000x128 : Shape := ⟨2, ![150000, 128]⟩
abbrev S128x128 : Shape := ⟨2, ![128, 128]⟩
abbrev S128 : Shape := ⟨1, ![128]⟩
abbrev S128x256 : Shape := ⟨2, ![128, 256]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S250000x256 : S_.BroadcastsInDim S250000x256 (![] : Fin 0 → Fin S250000x256.rank)
  reducesTo_S250000x256_S_d0_1 : S250000x256.ReducesTo [0, 1] S_
  bcast_S_S25000x64 : S_.BroadcastsInDim S25000x64 (![] : Fin 0 → Fin S25000x64.rank)
  reducesTo_S25000x64_S_d0_1 : S25000x64.ReducesTo [0, 1] S_
  bcast_S_S50000x128 : S_.BroadcastsInDim S50000x128 (![] : Fin 0 → Fin S50000x128.rank)
  reducesTo_S50000x128_S_d0_1 : S50000x128.ReducesTo [0, 1] S_
  bcast_S_S75000x64 : S_.BroadcastsInDim S75000x64 (![] : Fin 0 → Fin S75000x64.rank)
  reducesTo_S75000x64_S_d0_1 : S75000x64.ReducesTo [0, 1] S_
  bcast_S_S150000x128 : S_.BroadcastsInDim S150000x128 (![] : Fin 0 → Fin S150000x128.rank)
  reducesTo_S150000x128_S_d0_1 : S150000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x64 : S_.BroadcastsInDim S128x64 (![] : Fin 0 → Fin S128x64.rank)
  reducesTo_S128x64_S_d0_1 : S128x64.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S128x64 .f32) (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x128 .f32) (main_arg13 : FVec F S128 .f32) (main_arg14 : FVec F S128x64 .f32) (main_arg15 : FVec F S128 .f32) (main_arg16 : FVec F S128x128 .f32) (main_arg17 : FVec F S128 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x256 .f32) (main_arg9 : FVec F S128 .f32) (main_arg10 : FVec F S128x64 .f32) (main_arg11 : FVec F S128 .f32) (main_arg12 : FVec F S128x128 .f32) (main_arg13 : FVec F S128 .f32) (main_arg14 : FVec F S128x64 .f32) (main_arg15 : FVec F S128 .f32) (main_arg16 : FVec F S128x128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_arg16 main_arg17 main_v48 main_v49 main_v50

def fn_part1 {F : FTy → Type} [FloatOps F] (main_arg4 : FVec F S75000x64 .f32) (main_arg5 : FVec F S150000x128 .f32) (main_arg6 : FVec F S128x128 .f32) (main_arg7 : FVec F S128 .f32) (main_arg8 : FVec F S128x256 .f32) (main_arg9 : FVec F S128 .f32) (main_arg10 : FVec F S128x64 .f32) (main_arg11 : FVec F S128 .f32) (main_arg12 : FVec F S128x128 .f32) (main_arg13 : FVec F S128 .f32) (main_arg14 : FVec F S128x64 .f32) (main_arg15 : FVec F S128 .f32) (main_arg16 : FVec F S128x128 .f32) (main_arg17 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S75000x64 .f32 := Host.absf main_arg4
  let main_cst_6 : FVec F S_ .f32 := constant S_ .f32 0x7F800000#32
  let main_v20 : FVec F S75000x64 .f32 := broadcastInDim S75000x64 ![] bcast_S_S75000x64 main_cst_6
  let main_v21 : IVec S75000x64 1 := cmpf .olt main_v19 main_v20
  let main_c_7 : IVec S_ 1 := constantI S_ 1 1#1
  let main_v22 : IVec S_ 1 := (fun x v => Host.reduce IntOp.andi x v reducesTo_S75000x64_S_d0_1 h_S_) main_v21 main_c_7
  let main_v23 : IVec S_ 1 := andi main_v18 main_v22
  let main_v24 : FVec F S150000x128 .f32 := Host.absf main_arg5
  let main_cst_8 : FVec F S_ .f32 := constant S_ .f32 0x7F800000#32
  let main_v25 : FVec F S150000x128 .f32 := broadcastInDim S150000x128 ![] bcast_S_S150000x128 main_cst_8
  let main_v26 : IVec S150000x128 1 := cmpf .olt main_v24 main_v25
  let main_c_9 : IVec S_ 1 := constantI S_ 1 1#1
  let main_v27 : IVec S_ 1 := (fun x v => Host.reduce IntOp.andi x v reducesTo_S150000x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x128 .f32) (main_arg1 : FVec F S250000x256 .f32) (main_arg2 : FVec F S25000x64 .f32) (main_arg3 : FVec F S50000x128 .f32) (main_arg4 : FVec F S75000x64 .f32) (main_arg5 : FVec F S150000x128 .f32) (main_arg6 : FVec F S128x128 .f32) (main_arg7 : FVec F S128 .f32) (main_arg8 : FVec F S128x256 .f32) (main_arg9 : FVec F S128 .f32) (main_arg10 : FVec F S128x64 .f32) (main_arg11 : FVec F S128 .f32) (main_arg12 : FVec F S128x128 .f32) (main_arg13 : FVec F S128 .f32) (main_arg14 : FVec F S128x64 .f32) (main_arg15 : FVec F S128 .f32) (main_arg16 : FVec F S128x128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S250000x256 .f32 := Host.absf main_arg1
  let main_cst_0 : FVec F S_ .f32 := constant S_ .f32 0x7F800000#32
  let main_v5 : FVec F S250000x256 .f32 := broadcastInDim S250000x256 ![] bcast_S_S250000x256 main_cst_0
  let main_v6 : IVec S250000x256 1 := cmpf .olt main_v4 main_v5
  let main_c_1 : IVec S_ 1 := constantI S_ 1 1#1
  let main_v7 : IVec S_ 1 := (fun x v => Host.reduce IntOp.andi x v reducesTo_S250000x256_S_d0_1 h_S_) main_v6 main_c_1
  let main_v8 : IVec S_ 1 := andi main_v3 main_v7
  let main_v9 : FVec F S25000x64 .f32 := Host.absf main_arg2
  let main_cst_2 : FVec F S_ .f32 := constant S_ .f32 0x7F800000#32
  let main_v10 : FVec F S25000x64 .f32 := broadcastInDim S25000x64 ![] bcast_S_S25000x64 main_cst_2
  let main_v11 : IVec S25000x64 1 := cmpf .olt main_v9 main_v10
  let main_c_3 : IVec S_ 1 := constantI S_ 1 1#1
  let main_v12 : IVec S_ 1 := (fun x v => Host.reduce IntOp.andi x v reducesTo_S25000x64_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S250000x256 : Shape := ⟨2, ![250000, 256]⟩
abbrev S25000x64 : Shape := ⟨2, ![25000, 64]⟩
abbrev S50000x128 : Shape := ⟨2, ![50000, 128]⟩
abbrev S75000x64 : Shape := ⟨2, ![75000, 64]⟩
abbrev S150000x128 : Shape := ⟨2, ![150000, 128]⟩
abbrev S128x128 : Shape := ⟨2, ![128, 128]⟩
abbrev S128 : Shape := ⟨1, ![128]⟩
abbrev S128x256 : Shape := ⟨2, ![128, 256]⟩
abbrev S128x64 : Shape := ⟨2, ![128, 64]⟩
abbrev S1x128 : Shape := ⟨2, ![1, 128]⟩
abbrev S8192x128 : Shape := ⟨2, ![8192, 128]⟩
abbrev S250000x128 : Shape := ⟨2, ![250000, 128]⟩
abbrev S8192x256 : Shape := ⟨2, ![8192, 256]⟩
abbrev S25000x128 : Shape := ⟨2, ![25000, 128]⟩
abbrev S8192x64 : Shape := ⟨2, ![8192, 64]⟩
abbrev S75000x128 : Shape := ⟨2, ![75000, 128]⟩

abbrev nBuf : Space → Nat
  | .hbm => 30
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S250000x256, .f32⟩
  | .hbm, ⟨2, _⟩ => ⟨S25000x64, .f32⟩
  | .hbm, ⟨3, _⟩ => ⟨S50000x128, .f32⟩
  | .hbm, ⟨4, _⟩ => ⟨S75000x64, .f32⟩
  | .hbm, ⟨5, _⟩ => ⟨S150000x128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S1x128, .f32⟩
  | .hbm, ⟨19, _⟩ => ⟨S100000x128, .f32⟩
  | .hbm, ⟨20, _⟩ => ⟨S1x128, .f32⟩
  | .hbm, ⟨21, _⟩ => ⟨S250000x128, .f32⟩
  | .hbm, ⟨22, _⟩ => ⟨S1x128, .f32⟩
  | .hbm, ⟨23, _⟩ => ⟨S25000x128, .f32⟩
  | .hbm, ⟨24, _⟩ => ⟨S1x128, .f32⟩
  | .hbm, ⟨25, _⟩ => ⟨S50000x128, .f32⟩
  | .hbm, ⟨26, _⟩ => ⟨S1x128, .f32⟩
  | .hbm, ⟨27, _⟩ => ⟨S75000x128, .f32⟩
  | .hbm, ⟨28, _⟩ => ⟨S1x128, .f32⟩
  | .hbm, ⟨29, _⟩ => ⟨S150000x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | .local _ .vmem, ⟨6, _⟩ => ⟨S8192x256, .f32⟩
  | .local _ .vmem, ⟨7, _⟩ => ⟨S8192x256, .f32⟩
  | .local _ .vmem, ⟨8, _⟩ => ⟨S128x256, .f32⟩
  | .local _ .vmem, ⟨9, _⟩ => ⟨S1x128, .f32⟩
  | .local _ .vmem, ⟨10, _⟩ => ⟨S8192x128, .f32⟩
  | .local _ .vmem, ⟨11, _⟩ => ⟨S8192x128, .f32⟩
  | .local _ .vmem, ⟨12, _⟩ => ⟨S8192x64, .f32⟩
  | .local _ .vmem, ⟨13, _⟩ => ⟨S8192x64, .f32⟩
  | .local _ .vmem, ⟨14, _⟩ => ⟨S128x64, .f32⟩
  | .local _ .vmem, ⟨15, _⟩ => ⟨S1x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S128x128, .f32⟩
  | .local _ .vmem, ⟨21, _⟩ => ⟨S1x128, .f32⟩
  | .local _ .vmem, ⟨22, _⟩ => ⟨S8192x128, .f32⟩
  | .local _ .vmem, ⟨23, _⟩ => ⟨S8192x128, .f32⟩
  | .local _ .vmem, ⟨24, _⟩ => ⟨S8192x64, .f32⟩
  | .local _ .vmem, ⟨25, _⟩ => ⟨S8192x64, .f32⟩
  | .local _ .vmem, ⟨26, _⟩ => ⟨S128x64, .f32⟩
  | .local _ .vmem, ⟨27, _⟩ => ⟨S1x128, .f32⟩
  | .local _ .vmem, ⟨28, _⟩ => ⟨S8192x128, .f32⟩
  | .local _ .vmem, ⟨29, _⟩ => ⟨S8192x128, .f32⟩
  | .local _ .vmem, ⟨30, _⟩ => ⟨S8192x128, .f32⟩
  | .local _ .vmem, ⟨31, _⟩ => ⟨S8192x128, .f32⟩
  | .local _ .vmem, ⟨32, _⟩ => ⟨S128x128, .f32⟩
  | .local _ .vmem, ⟨33, _⟩ => ⟨S1x128, .f32⟩
  | .local _ .vmem, ⟨34, _⟩ => ⟨S8192x128, .f32⟩
  | .local _ .vmem, ⟨35, _⟩ => ⟨S8192x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![31], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![7], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![19], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8192x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x256_S8192x256_0_0 : ∀ a, (![0, 0] : Fin 2 → Nat) a + S8192x256.size a ≤ S8192x256.size a
  h_S8192x256 : 0 < S8192x256.numel
  inb_S128x256_S128x256_0_0 : ∀ a, (![0, 0] : Fin 2 → Nat) a + S128x256.size a ≤ S128x256.size a
  h_S128x256 : 0 < S128x256.numel
  inb_S8192x64_S8192x64_0_0 : ∀ a, (![0, 0] : Fin 2 → Nat) a + S8192x64.size a ≤ S8192x64.size a
  h_S8192x64 : 0 < S8192x64.numel
  inb_S128x64_S128x64_0_0 : ∀ a, (![0, 0] : Fin 2 → Nat) a + S128x64.size a ≤ S128x64.size a
  h_S128x64 : 0 < S128x64.numel
  dot_S8192x128_S128x128_S8192x128_1_1_0_0_n_n_wf : DotDims.WF S8192x128 S128x128 S8192x128 [1] [1] [0] [0] [] []
  dot_S8192x256_S128x256_S8192x128_1_1_0_0_n_n_wf : DotDims.WF S8192x256 S128x256 S8192x128 [1] [1] [0] [0] [] []
  dot_S8192x64_S128x64_S8192x128_1_1_0_0_n_n_wf : DotDims.WF S8192x64 S128x64 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S100000x128.size a
  hwx0_0 : ∀ i : grid0.Coords, EltTy.bits .f32 = 32 ∨ (Rect.unit (s := S100000x128) (fun a => cc0_transform_0 i a * S8192x128.size a) (fun a => (Pipeline.Clip.of (cc0_transform_0 i a) (S8192x128.size a) (S100000x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S100000x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x128.size a < S100000x128.size a
  hwx0_3 : ∀ i : grid0.Coords, EltTy.bits .f32 = 32 ∨ (Rect.unit (s := S100000x128) (fun a => cc0_transform_3 i a * S8192x128.size a) (fun a => (Pipeline.Clip.of (cc0_transform_3 i a) (S8192x128.size a) (S100000x128.size a)).extent (S8192x128.size a)) fun a => Pipeline.Clip.inb (Pipeline.Clip.ok_of (hstart0_3 i a))).WholeWords (EltTy.packing .f32)
  hwxs0_3 : ∀ i : grid0.Coords, EltTy.bits .f32 = 32 ∨ (Rect.unit (s := S8192x128) (fun _ => 0) (fun a => (Pipeline.Clip.of (cc0_transform_3 i a) (S8192x128.size a) (S100000x128.size a)).extent (S8192x128.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x256.size a < S250000x256.size a
  hwx1_0 : ∀ i : grid1.Coords, EltTy.bits .f32 = 32 ∨ (Rect.unit (s := S250000x256) (fun a => cc1_transform_0 i a * S8192x256.size a) (fun a => (Pipeline.Clip.of (cc1_transform_0 i a) (S8192x256.size a) (S250000x256.size a)).extent (S8192x256.size a)) fun a => Pipeline.Clip.inb (Pipeline.Clip.ok_of (hstart1_0 i a))).WholeWords (EltTy.packing .f32)
  hwxs1_0 : ∀ i : grid1.Coords, EltTy.bits .f32 = 32 ∨ (Rect.unit (s := S8192x256) (fun _ => 0) (fun a => (Pipeline.Clip.of (cc1_transform_0 i a) (S8192x256.size a) (S250000x256.size a)).extent (S8192x256.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S8192x128.size a < S250000x128.size a
  hwx1_3 : ∀ i : grid1.Coords, EltTy.bits .f32 = 32 ∨ (Rect.unit (s := S250000x128) (fun a => cc1_transform_3 i a * S8192x128.size a) (fun a => (Pipeline.Clip.of (cc1_transform_3 i a) (S8192x128.size a) (S250000x128.size a)).extent (S8192x128.size a)) fun a => Pipeline.Clip.inb (Pipeline.Clip.ok_of (hstart1_3 i a))).WholeWords (EltTy.packing .f32)
  hwxs1_3 : ∀ i : grid1.Coords, EltTy.bits .f32 = 32 ∨ (Rect.unit (s := S8192x128) (fun _ => 0) (fun a => (Pipeline.Clip.of (cc1_transform_3 i a) (S8192x128.size a) (S250000x128.size a)).extent (S8192x128.size a)) fun a => (Nat.zero_add _).trans_le (Pipeline.Clip.extent_le (Pipeline.Clip.ok_of (hstart1_3 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S8192x64.size a < S25000x64.size a
  hwx2_0 : ∀ i : grid2.Coords, EltTy.bits .f32 = 32 ∨ (Rect.unit (s := S25000x64) (fun a => cc2_transform_0 i a * S8192x64.size a) (fun a => (Pipeline.Clip.of (cc2_transform_0 i a) (S8192x64.size a) (S25000x64.size a)).extent (S8192x64.size a)) fun a => Pipeline.Clip.inb (Pipeline.Clip.ok_of (hstart2_0 i a))).WholeWords (EltTy.packing .f32)
  hwxs2_0 : ∀ i : grid2.Coords, EltTy.bits .f32 = 32 ∨ (Rect.unit (s := S8192x64) (fun _ => 0) (fun a => (Pipeline.Clip.of (cc2_transform_0 i a) (S8192x64.size a) (S25000x64.size a)).extent (S8192x64.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S8192x128.size a < S25000x128.size a
  hwx2_3 : ∀ i : grid2.Coords, EltTy.bits .f32 = 32 ∨ (Rect.unit (s := S25000x128) (fun a => cc2_transform_3 i a * S8192x128.size a) (fun a => (Pipeline.Clip.of (cc2_transform_3 i a) (S8192x128.size a) (S25000x128.size a)).extent (S8192x128.size a)) fun a => Pipeline.Clip.inb (Pipeline.Clip.ok_of (hstart2_3 i a))).WholeWords (EltTy.packing .f32)
  hwxs2_3 : ∀ i : grid2.Coords, EltTy.bits .f32 = 32 ∨ (Rect.unit (s := S8192x128) (fun _ => 0) (fun a => (Pipeline.Clip.of (cc2_transform_3 i a) (S8192x128.size a) (S25000x128.size a)).extent (S8192x128.size a)) fun a => (Nat.zero_add _).trans_le (Pipeline.Clip.extent_le (Pipeline.Clip.ok_of (hstart2_3 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S8192x128.size a < S50000x128.size a
  hwx3_0 : ∀ i : grid3.Coords, EltTy.bits .f32 = 32 ∨ (Rect.unit (s := S50000x128) (fun a => cc3_transform_0 i a * S8192x128.size a) (fun a => (Pipeline.Clip.of (cc3_transform_0 i a) (S8192x128.size a) (S50000x128.size a)).extent (S8192x128.size a)) fun a => Pipeline.Clip.inb (Pipeline.Clip.ok_of (hstart3_0 i a))).WholeWords (EltTy.packing .f32)
  hwxs3_0 : ∀ i : grid3.Coords, EltTy.bits .f32 = 32 ∨ (Rect.unit (s := S8192x128) (fun _ => 0) (fun a => (Pipeline.Clip.of (cc3_transform_0 i a) (S8192x128.size a) (S50000x128.size a)).extent (S8192x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S8192x128.size a < S50000x128.size a
  hwx3_3 : ∀ i : grid3.Coords, EltTy.bits .f32 = 32 ∨ (Rect.unit (s := S50000x128) (fun a => cc3_transform_3 i a * S8192x128.size a) (fun a => (Pipeline.Clip.of (cc3_transform_3 i a) (S8192x128.size a) (S50000x128.size a)).extent (S8192x128.size a)) fun a => Pipeline.Clip.inb (Pipeline.Clip.ok_of (hstart3_3 i a))).WholeWords (EltTy.packing .f32)
  hwxs3_3 : ∀ i : grid3.Coords, EltTy.bits .f32 = 32 ∨ (Rect.unit (s := S8192x128) (fun _ => 0) (fun a => (Pipeline.Clip.of (cc3_transform_3 i a) (S8192x128.size a) (S50000x128.size a)).extent (S8192x128.size a)) fun a => (Nat.zero_add _).trans_le (Pipeline.Clip.extent_le (Pipeline.Clip.ok_of (hstart3_3 i a)))).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S8192x64.size a < S75000x64.size a
  hwx4_0 : ∀ i : grid4.Coords, EltTy.bits .f32 = 32 ∨ (Rect.unit (s := S75000x64) (fun a => cc4_transform_0 i a * S8192x64.size a) (fun a => (Pipeline.Clip.of (cc4_transform_0 i a) (S8192x64.size a) (S75000x64.size a)).extent (S8192x64.size a)) fun a => Pipeline.Clip.inb (Pipeline.Clip.ok_of (hstart4_0 i a))).WholeWords (EltTy.packing .f32)
  hwxs4_0 : ∀ i : grid4.Coords, EltTy.bits .f32 = 32 ∨ (Rect.unit (s := S8192x64) (fun _ => 0) (fun a => (Pipeline.Clip.of (cc4_transform_0 i a) (S8192x64.size a) (S75000x64.size a)).extent (S8192x64.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hstart4_3 : ∀ (i : grid4.Coords) a, cc4_transform_3 i a * S8192x128.size a < S75000x128.size a
  hwx4_3 : ∀ i : grid4.Coords, EltTy.bits .f32 = 32 ∨ (Rect.unit (s := S75000x128) (fun a => cc4_transform_3 i a * S8192x128.size a) (fun a => (Pipeline.Clip.of (cc4_transform_3 i a) (S8192x128.size a) (S75000x128.size a)).extent (S8192x128.size a)) fun a => Pipeline.Clip.inb (Pipeline.Clip.ok_of (hstart4_3 i a))).WholeWords (EltTy.packing .f32)
  hwxs4_3 : ∀ i : grid4.Coords, EltTy.bits .f32 = 32 ∨ (Rect.unit (s := S8192x128) (fun _ => 0) (fun a => (Pipeline.Clip.of (cc4_transform_3 i a) (S8192x128.size a) (S75000x128.size a)).extent (S8192x128.size a)) fun a => (Nat.zero_add _).trans_le (Pipeline.Clip.extent_le (Pipeline.Clip.ok_of (hstart4_3 i a)))).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S8192x128.size a < S150000x128.size a
  hwx5_0 : ∀ i : grid5.Coords, EltTy.bits .f32 = 32 ∨ (Rect.unit (s := S150000x128) (fun a => cc5_transform_0 i a * S8192x128.size a) (fun a => (Pipeline.Clip.of (cc5_transform_0 i a) (S8192x128.size a) (S150000x128.size a)).extent (S8192x128.size a)) fun a => Pipeline.Clip.inb (Pipeline.Clip.ok_of (hstart5_0 i a))).WholeWords (EltTy.packing .f32)
  hwxs5_0 : ∀ i : grid5.Coords, EltTy.bits .f32 = 32 ∨ (Rect.unit (s := S8192x128) (fun _ => 0) (fun a => (Pipeline.Clip.of (cc5_transform_0 i a) (S8192x128.size a) (S150000x128.size a)).extent (S8192x128.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hstart5_3 : ∀ (i : grid5.Coords) a, cc5_transform_3 i a * S8192x128.size a < S150000x128.size a
  hwx5_3 : ∀ i : grid5.Coords, EltTy.bits .f32 = 32 ∨ (Rect.unit (s := S150000x128) (fun a => cc5_transform_3 i a * S8192x128.size a) (fun a => (Pipeline.Clip.of (cc5_transform_3 i a) (S8192x128.size a) (S150000x128.size a)).extent (S8192x128.size a)) fun a => Pipeline.Clip.inb (Pipeline.Clip.ok_of (hstart5_3 i a))).WholeWords (EltTy.packing .f32)
  hwxs5_3 : ∀ i : grid5.Coords, EltTy.bits .f32 = 32 ∨ (Rect.unit (s := S8192x128) (fun _ => 0) (fun a => (Pipeline.Clip.of (cc5_transform_3 i a) (S8192x128.size a) (S150000x128.size a)).extent (S8192x128.size a)) fun a => (Nat.zero_add _).trans_le (Pipeline.Clip.extent_le (Pipeline.Clip.ok_of (hstart5_3 i a)))).WholeWords (EltTy.packing .f32)

variable [Facts₀]

def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S8192x256_S128x256_S8192x128_1_1_0_0_n_n : DotDims S8192x256 S128x256 S8192x128 where
  lhsContracting := [1]
  rhsContracting := [1]
  lhsNonContracting := [0]
  rhsNonContracting := [0]
  lhsBatch := []
  rhsBatch := []
  wf := dot_S8192x256_S128x256_S8192x128_1_1_0_0_n_n_wf
def dot_S8192x64_S128x64_S8192x128_1_1_0_0_n_n : DotDims S8192x64 S128x64 S8192x128 where
  lhsContracting := [1]
  rhsContracting := [1]
  lhsNonContracting := [0]
  rhsNonContracting := [0]
  lhsBatch := []
  rhsBatch := []
  wf := dot_S8192x64_S128x64_S8192x128_1_1_0_0_n_n_wf

abbrev win0_0 : Pipeline.Window sig grid0 :=
  Pipeline.Window.ofSpecClip (Memref.whole main_arg0) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S8192x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_arg1) S8192x256.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_arg8) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v3) S8192x128.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpecClip (Memref.whole main_arg2) S8192x64.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpecClip (Memref.whole main_v5) S8192x128.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpecClip (Memref.whole main_arg3) S8192x128.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_arg12) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpecClip (Memref.whole main_v7) S8192x128.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpecClip (Memref.whole main_arg4) S8192x64.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpec (Memref.whole main_arg14) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpecClip (Memref.whole main_v9) S8192x128.size cc4_transform_3 reads4_3 true false 2 stage4_3 sem4_3
    hrank4 hreads4_3 hstart4_3 nbuf4_3 (Memref.isWhole_whole _) hwx4_3 hwxs4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpecClip (Memref.whole main_arg5) S8192x128.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpec (Memref.whole main_arg16) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpecClip (Memref.whole main_v11) S8192x128.size cc5_transform_3 reads5_3 true false 2 stage5_3 sem5_3
    hrank5 hreads5_3 hstart5_3 nbuf5_3 (Memref.isWhole_whole _) hwx5_3 hwxs5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S250000x256 : Shape := ⟨2, ![250000, 256]⟩
abbrev S25000x64 : Shape := ⟨2, ![25000, 64]⟩
abbrev S50000x128 : Shape := ⟨2, ![50000, 128]⟩
abbrev S75000x64 : Shape := ⟨2, ![75000, 64]⟩
abbrev S150000x128 : Shape := ⟨2, ![150000, 128]⟩
abbrev S128x128 : Shape := ⟨2, ![128, 128]⟩
abbrev S128 : Shape := ⟨1, ![128]⟩
abbrev S128x256 : Shape := ⟨2, ![128, 256]⟩
abbrev S128x64 : Shape := ⟨2, ![128, 64]⟩
abbrev S1x128 : Shape := ⟨2, ![1, 128]⟩
abbrev S250000x128 : Shape := ⟨2, ![250000, 128]⟩
abbrev S25000x128 : Shape := ⟨2, ![25000, 128]⟩
abbrev S75000x128 : Shape := ⟨2, ![75000, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S250000x256, .f32⟩
  | .hbm, ⟨2, _⟩ => ⟨S25000x64, .f32⟩
  | .hbm, ⟨3, _⟩ => ⟨S50000x128, .f32⟩
  | .hbm, ⟨4, _⟩ => ⟨S75000x64, .f32⟩
  | .hbm, ⟨5, _⟩ => ⟨S150000x128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x64, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S250000x128, .f32⟩
  | .hbm, ⟨23, _⟩ => ⟨S1x128, .f32⟩
  | .hbm, ⟨24, _⟩ => ⟨S250000x128, .f32⟩
  | .hbm, ⟨25, _⟩ => ⟨S250000x128, .f32⟩
  | .hbm, ⟨26, _⟩ => ⟨S25000x128, .f32⟩
  | .hbm, ⟨27, _⟩ => ⟨S1x128, .f32⟩
  | .hbm, ⟨28, _⟩ => ⟨S25000x128, .f32⟩
  | .hbm, ⟨29, _⟩ => ⟨S25000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S75000x128, .f32⟩
  | .hbm, ⟨35, _⟩ => ⟨S1x128, .f32⟩
  | .hbm, ⟨36, _⟩ => ⟨S75000x128, .f32⟩
  | .hbm, ⟨37, _⟩ => ⟨S75000x128, .f32⟩
  | .hbm, ⟨38, _⟩ => ⟨S150000x128, .f32⟩
  | .hbm, ⟨39, _⟩ => ⟨S1x128, .f32⟩
  | .hbm, ⟨40, _⟩ => ⟨S150000x128, .f32⟩
  | .hbm, ⟨41, _⟩ => ⟨S150000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S250000x128_0_1 : S1x128.BroadcastsInDim S250000x128 (![0, 1] : Fin 2 → Fin S250000x128.rank)
  bcast_S1x128_S25000x128_0_1 : S1x128.BroadcastsInDim S25000x128 (![0, 1] : Fin 2 → Fin S25000x128.rank)
  bcast_S1x128_S50000x128_0_1 : S1x128.BroadcastsInDim S50000x128 (![0, 1] : Fin 2 → Fin S50000x128.rank)
  bcast_S1x128_S75000x128_0_1 : S1x128.BroadcastsInDim S75000x128 (![0, 1] : Fin 2 → Fin S75000x128.rank)
  bcast_S1x128_S150000x128_0_1 : S1x128.BroadcastsInDim S150000x128 (![0, 1] : Fin 2 → Fin S150000x128.rank)
  dot_S100000x128_S128x128_S100000x128_1_1_0_0_n_n_wf : DotDims.WF S100000x128 S128x128 S100000x128 [1] [1] [0] [0] [] []
  dot_S250000x256_S128x256_S250000x128_1_1_0_0_n_n_wf : DotDims.WF S250000x256 S128x256 S250000x128 [1] [1] [0] [0] [] []
  dot_S25000x64_S128x64_S25000x128_1_1_0_0_n_n_wf : DotDims.WF S25000x64 S128x64 S25000x128 [1] [1] [0] [0] [] []
  dot_S50000x128_S128x128_S50000x128_1_1_0_0_n_n_wf : DotDims.WF S50000x128 S128x128 S50000x128 [1] [1] [0] [0] [] []
  dot_S75000x64_S128x64_S75000x128_1_1_0_0_n_n_wf : DotDims.WF S75000x64 S128x64 S75000x128 [1] [1] [0] [0] [] []
  dot_S150000x128_S128x128_S150000x128_1_1_0_0_n_n_wf : DotDims.WF S150000x128 S128x128 S150000x128 [1] [1] [0] [0] [] []

variable [Facts₀]

def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def dot_S250000x256_S128x256_S250000x128_1_1_0_0_n_n : DotDims S250000x256 S128x256 S250000x128 where
  lhsContracting := [1]
  rhsContracting := [1]
  lhsNonContracting := [0]
  rhsNonContracting := [0]
  lhsBatch := []
  rhsBatch := []
  wf := dot_S250000x256_S128x256_S250000x128_1_1_0_0_n_n_wf
def dot_S25000x64_S128x64_S25000x128_1_1_0_0_n_n : DotDims S25000x64 S128x64 S25000x128 where
  lhsContracting := [1]
  rhsContracting := [1]
  lhsNonContracting := [0]
  rhsNonContracting := [0]
  lhsBatch := []
  rhsBatch := []
  wf := dot_S25000x64_S128x64_S25000x128_1_1_0_0_n_n_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf
def dot_S75000x64_S128x64_S75000x128_1_1_0_0_n_n : DotDims S75000x64 S128x64 S75000x128 where
  lhsContracting := [1]
  rhsContracting := [1]
  lhsNonContracting := [0]
  rhsNonContracting := [0]
  lhsBatch := []
  rhsBatch := []
  wf := dot_S75000x64_S128x64_S75000x128_1_1_0_0_n_n_wf
def dot_S150000x128_S128x128_S150000x128_1_1_0_0_n_n : DotDims S150000x128 S128x128 S150000x128 where
  lhsContracting := [1]
  rhsContracting := [1]
  lhsNonContracting := [0]
  rhsNonContracting := [0]
  lhsBatch := []
  rhsBatch := []
  wf := dot_S150000x128_S128x128_S150000x128_1_1_0_0_n_n_wf

class Facts : Prop extends Facts₀ where

variable [Facts]
-- ==== Proof.KB.State.lean ====
import proofs.«182238_j40286793237062_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- Outside `O` every reference holds its launch contents.
def Inv (O : List (Ref sig .tc)) (c : Dev nD) (V : Valuation τ sig (Elt F)) : Prop :=
  ∀ r, r ∉ O → V (Proc.devRef .tc r) = m ((c : Thread nD τ).loc r)

-- The references hold `ops` applied to some such valuation.
abbrev T (ops : List (HloOp τ sig (Elt F))) (O : List (Ref sig .tc)) (c : Dev nD) : sProp 𝕄 :=
  iprop(∃ V, ⌜Inv m O c V⌝ ∗ StableHlo.held (c : Thread nD τ) (Pipeline.ucRefs τ sig) (StableHlo.after ops V) ∗ R c)

variable {m}

-- A reshape reads `a` and writes `v`: applied to two valuations equal outside `O`, with `a` outside `O`, its results are equal outside `O`.
theorem Inv.reshape {O : List (Ref sig .tc)} {c : Dev nD} {V : Valuation τ sig (Elt F)} (h : Inv m O c V)
    {ops : List (HloOp τ sig (Elt F))} (a v : Ref sig .tc) (he hn hx hy) (hp : ops = [StableHlo.reshape a v he hn hx hy])
    (ha : a ∉ O) {r : Ref sig .tc} (hr : r ∉ O) :
    StableHlo.after ops (V0 m c) (Proc.devRef .tc r) = StableHlo.after ops V (Proc.devRef .tc r) := by
  subst hp; simp only [StableHlo.after_cons, StableHlo.after_nil]
  by_cases e : r = v
  · subst e; rw [StableHlo.reshape_result, StableHlo.reshape_result, h a ha]
  · rw [StableHlo.reshape_result_ne _ _ _ _ _ _ _ e, StableHlo.reshape_result_ne _ _ _ _ _ _ _ e, h r hr]

-- Overwriting `x` after that reshape changes nothing outside `x`, `v` and `O`.
theorem Inv.update {O : List (Ref sig .tc)} {c : Dev nD} {V : Valuation τ sig (Elt F)} (h : Inv m O c V)
    {ops : List (HloOp τ sig (Elt F))} (a v : Ref sig .tc) (he hn hx hy) (hp : ops = [StableHlo.reshape a v he hn hx hy])
    (x : Ref sig .tc) (G : Buf (Elt F) ((c : Thread nD τ).loc x)) :
    Inv m (x :: v :: O) c (Function.update (StableHlo.after ops V) (Proc.devRef .tc x) G) := fun r hr => by
  subst hp; rw [Function.update_of_ne (StableHlo.devRef_ne_of_ne (List.ne_of_not_mem_cons hr))]
  simp only [StableHlo.after_cons, StableHlo.after_nil]
  rw [StableHlo.reshape_result_ne _ _ _ _ _ _ _ (List.ne_of_not_mem_cons (List.not_mem_of_not_mem_cons hr))]
  exact h r (List.not_mem_of_not_mem_cons (List.not_mem_of_not_mem_cons hr))

variable (m)

set_option backward.isDefEq.respectTransparency.types false in
-- The rule for a list of operations, used at whichever valuation the state holds.
def hsegOf (ops : List (HloOp τ sig (Elt F))) (hsub : ops.Forall fun op => op.bufs ⊆ StableHlo.tcRefs τ sig)
    (hfresh : ops.Forall fun op => op.fresh = ∅) (O : List (Ref sig .tc)) :
    Pipeline.HostSeg (Ix := Unit) (Name := ℕ) (U := UR sig nD τ) (Lvl := ℕ) (pcfgs (F := F)) defs₀ 𝒱₀ L lv where
  prog := StableHlo.seq ops
  pre := T m [] O
  post := T m ops O
  run c {β} k K := by
    iintro ⟨Hk, Hb, ⟨%V, %hV, Hpre⟩, Hlev⟩
    have hrun := (Pipeline.HostSeg.ofOps (pcfgs (F := F)) defs₀ 𝒱₀ L lv (Pipeline.ucRefs τ sig) ops
      (fun op h => Pipeline.sub_ucRefs op ((List.forall_iff_forall_mem.mp hsub) op h))
      (List.forall_iff_forall_mem.mp hfresh) (fun _ => V) R).run c k K
    dsimp only [Pipeline.HostSeg.ofOps] at hrun
    iapply hrun
    isplitl [Hk]
    · iintro ⟨Hb, Hpost⟩; iapply Hk; isplitl [Hb]; · iexact Hb
      iexists V; isplitr; · ipureintro; exact hV
      iexact Hpost
    isplitl [Hb]; · iexact Hb
    isplitl [Hpre]; · iexact Hpre
    iexact Hlev

end Cert.Kernel.Hand

end
-- ==== Proof.KB.Body.lean ====
import proofs.«182238_j40286793237062_1_alg».proof.Proof.Gen.Kernel.Launch
import proofs.«182238_j40286793237062_1_alg».proof.Proof.Gen.Kernel.Skeleton
import proofs.«182238_j40286793237062_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (UR sig nD τ) ℕ

-- A block that starts at the origin and has the array's own extent lies inside the array.
theorem inb0 (d : Fin 2 → ℕ) : ∀ a, (![0, 0] : Fin 2 → ℕ) a + (⟨2, d⟩ : Shape).size a ≤ (⟨2, d⟩ : Shape).size a :=
  fun a => by fin_cases a <;> exact (Nat.zero_add _).le

variable {dx dw db dz : Fin 2 → ℕ}

-- Four whole-block reads, then one whole-block write into the fourth: every block is held at some contents before and after.
theorem sound_lin (c : Dev nD) (E : Set ℕ) (Φ Ω : sProp 𝕄)
    (pay : Vec F ⟨2, dx⟩ .f32 → Vec F ⟨2, dw⟩ .f32 → Vec F ⟨2, db⟩ .f32 → FVec F ⟨2, dz⟩ .f32)
    (arg1 : Memref sig .tc .vmem ⟨2, dx⟩ .f32) (arg2 : Memref sig .tc .vmem ⟨2, dw⟩ .f32)
    (arg3 : Memref sig .tc .vmem ⟨2, db⟩ .f32) (arg4 : Memref sig .tc .vmem ⟨2, dz⟩ .f32)
    (hx : 0 < (⟨2, dx⟩ : Shape).numel := by decide) (hw : 0 < (⟨2, dw⟩ : Shape).numel := by decide)
    (hb : 0 < (⟨2, db⟩ : Shape).numel := by decide) (hz : 0 < (⟨2, dz⟩ : Shape).numel := by decide) :
    iprop(Φ ∗ Ω ∗ (∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d))
      ⊢ wp frame (wpE (defs₀ (F := F)) Variants.none c none) E (do
          let v0 : Vec F ⟨2, dx⟩ .f32 ← Prog.lift (.load arg1 (Rect.unit (s := ⟨2, dx⟩) ![0, 0] (⟨2, dx⟩ : Shape).size (inb0 dx)).toLoadRect (View.loadsAt_vmem hx))
          let v2 : Vec F ⟨2, dw⟩ .f32 ← Prog.lift (.load arg2 (Rect.unit (s := ⟨2, dw⟩) ![0, 0] (⟨2, dw⟩ : Shape).size (inb0 dw)).toLoadRect (View.loadsAt_vmem hw))
          let v5 : Vec F ⟨2, db⟩ .f32 ← Prog.lift (.load arg3 (Rect.unit (s := ⟨2, db⟩) ![0, 0] (⟨2, db⟩ : Shape).size (inb0 db)).toLoadRect (View.loadsAt_vmem hb))
          let v9 : Vec F ⟨2, dz⟩ .f32 ← Prog.lift (.load arg4 (Rect.unit (s := ⟨2, dz⟩) ![0, 0] (⟨2, dz⟩ : Shape).size (inb0 dz)).toLoadRect (View.loadsAt_vmem hz))
          Prog.lift (.store arg4 (Rect.unit (s := ⟨2, dz⟩) ![0, 0] (⟨2, dz⟩ : Shape).size (inb0 dz)) (pay v0 v2 v5) Finset.univ (View.stores_vmem_bits_univ hz rfl) (.inl rfl))
          pure ⟨⟩ : Prog (TpuEff nD τ sig (Elt F) Λ₀ .tc) PUnit)
        (fun _ => iprop(Φ ∗ Ω ∗ (∃ d, owns (c : Thread nD τ) arg1 fullShare d) ∗ (∃ d, owns (c : Thread nD τ) arg2 fullShare d)
          ∗ (∃ d, owns (c : Thread nD τ) arg3 fullShare d) ∗ (∃ d, owns (c : Thread nD τ) arg4 fullShare d))) := by
  unfold owns
  iintro ⟨HΦ, HΩ, ⟨%d1, %f1, -, H1⟩, ⟨%d2, %f2, -, H2⟩, ⟨%d3, %f3, -, H3⟩, ⟨%d4, %f4, -, H4⟩⟩
  sl_exec
  sl_step
  isplitl [HΦ]; · iexact HΦ
  isplitl [HΩ]; · iexact HΩ
  isplitl [H1]
  · iexists _; iexists _; isplitr; swap; · iexact H1
    ipureintro; rfl
  isplitl [H2]
  · iexists _; iexists _; isplitr; swap; · iexact H2
    ipureintro; rfl
  isplitl [H3]
  · iexists _; iexists _; isplitr; swap; · iexact H3
    ipureintro; rfl
  iexists _; iexists _; isplitr; swap; · iexact H4
  ipureintro; rfl

-- The arrays as `V` has them.
def datOf (cfg : Cfg sig Λ₀) (c : Dev nD) (V : (b : Ref sig .tc) → Buf (Elt F) ((c : Thread nD τ).loc b)) :
    Dat τ (Elt F) Unit ℕ (UR sig nD τ) ℕ cfg c where
  A w := V (Pipeline.arrRef cfg.spec w)
  after := Dat.unnamed
  Φ _ := Pipeline.ΦA cfg.spec c
  q _ := fullShare
  owed _ := 0

variable {c : Dev nD} (V : (b : Ref sig .tc) → Buf (Elt F) ((c : Thread nD τ).loc b))

theorem body_obligation0 : BodyObligation (datOf cfg0 c V) (defs₀ (F := F)) Variants.none () Set.univ (fgt := fun _ => true) := fun t => by
  rw [bigSep_W0]; try rw [bigSep_W0]
  show _ ⊢ wp frame _ _ (bodyAt0 t) _
  unfold bodyAt0; rw [cc0__linear_kernel_eq_skeleton]
  exact sound_lin c _ _ _ k0_pay1 _ _ _ _

theorem body_obligation1 : BodyObligation (datOf cfg1 c V) (defs₀ (F := F)) Variants.none () Set.univ (fgt := fun _ => true) := fun t => by
  rw [bigSep_W1]; try rw [bigSep_W1]
  show _ ⊢ wp frame _ _ (bodyAt1 t) _
  unfold bodyAt1; rw [cc1__linear_kernel_eq_skeleton]
  exact sound_lin c _ _ _ k1_pay1 _ _ _ _

theorem body_obligation2 : BodyObligation (datOf cfg2 c V) (defs₀ (F := F)) Variants.none () Set.univ (fgt := fun _ => true) := fun t => by
  rw [bigSep_W2]; try rw [bigSep_W2]
  show _ ⊢ wp frame _ _ (bodyAt2 t) _
  unfold bodyAt2; rw [cc2__linear_kernel_eq_skeleton]
  exact sound_lin c _ _ _ k2_pay1 _ _ _ _

theorem body_obligation3 : BodyObligation (datOf cfg3 c V) (defs₀ (F := F)) Variants.none () Set.univ (fgt := fun _ => true) := fun t => by
  rw [bigSep_W3]; try rw [bigSep_W3]
  show _ ⊢ wp frame _ _ (bodyAt3 t) _
  unfold bodyAt3; rw [cc3__linear_kernel_eq_skeleton]
  exact sound_lin c _ _ _ k3_pay1 _ _ _ _

theorem body_obligation4 : BodyObligation (datOf cfg4 c V) (defs₀ (F := F)) Variants.none () Set.univ (fgt := fun _ => true) := fun t => by
  rw [bigSep_W4]; try rw [bigSep_W4]
  show _ ⊢ wp frame _ _ (bodyAt4 t) _
  unfold bodyAt4; rw [cc4__linear_kernel_eq_skeleton]
  exact sound_lin c _ _ _ k4_pay1 _ _ _ _

theorem body_obligation5 : BodyObligation (datOf cfg5 c V) (defs₀ (F := F)) Variants.none () Set.univ (fgt := fun _ => true) := fun t => by
  rw [bigSep_W5]; try rw [bigSep_W5]
  show _ ⊢ wp frame _ _ (bodyAt5 t) _
  unfold bodyAt5; rw [cc5__linear_kernel_eq_skeleton]
  exact sound_lin c _ _ _ k5_pay1 _ _ _ _

end Cert.Kernel.Hand

end
-- ==== Proof.KB.Reg.lean ====
import proofs.«182238_j40286793237062_1_alg».proof.Proof.KB.State
import proofs.«182238_j40286793237062_1_alg».proof.Proof.KB.Body

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

-- The reshape before each region.
abbrev hops : Fin 6 → List (HloOp τ sig (Elt F)) := ![hostOps0, hostOps1, hostOps2, hostOps3, hostOps4, hostOps5]

-- A region finds its arrays as its reshape makes them from the launch memory.
def pdats (p : Fin 6) (c : Dev nD) : Dat τ (Elt F) Unit ℕ (UR sig nD τ) ℕ (Pipeline.pin (pcfgs (F := F)) adm p) c :=
  datOf _ c fun b => StableHlo.after (hops p) (V0 m c) b

def rdats (p : Fin 6) (c : Dev nD) : RDat τ (Elt F) Unit ℕ (UR sig nD τ) ℕ (Pipeline.pin (pcfgs (F := F)) adm p) c :=
  (pdats m p c).toRForget fun _ => true

-- A product of existentials is an existential over families.
theorem arraysAt_open {cfg : Cfg sig Λ₀} {c : Dev nD} (rd : RDat τ (Elt F) Unit ℕ (UR sig nD τ) ℕ cfg c) (n : Nat) :
    (rd.arraysAt n : sProp 𝕄) ⊢ iprop(∃ A, ⌜∀ w, rd.ArrAt w n (A w)⌝ ∗ rd.arrays A) := by
  unfold RDat.arraysAt RDat.arrays
  iintro Ha
  ihave Ha' := (BI.bigSep_exists_pi Finset.univ (fun w G => iprop(⌜rd.ArrAt w n G⌝
      ∗ (cfg.win w).arr.view.loc (c.tc : Thread nD τ) ↦[(cfg.win w).arr.view.set]{rd.share w} G))) $$ Ha
  icases Ha' with ⟨%A, Ha⟩
  ihave Ha2 := (BI.bigSep_pure_sep Finset.univ (fun w => rd.ArrAt w n (A w))
      (fun w => (cfg.win w).arr.view.loc (c.tc : Thread nD τ) ↦[(cfg.win w).arr.view.set]{rd.share w} A w)) $$ Ha
  icases Ha2 with ⟨%hA', Ha⟩
  iexists A; isplitr; · ipureintro; exact fun w => hA' w (Finset.mem_univ w)
  iexact Ha

set_option backward.isDefEq.respectTransparency.types false in
-- Entered after the reshape of `a` into `v`; no array of the region is in `O`, and only window `o` is written.
def regOf (p : Fin 6) (launch : Pipeline.LaunchFacts (nD := nD) (τ := τ) cfgs p)
    (hbody : ∀ c, BodyObligation (pdats m p c) defs₀ 𝒱₀ () Set.univ (fgt := fun _ => true))
    {a v : Ref sig .tc} {he hn hx hy} (hp : hops (F := F) p = [StableHlo.reshape a v he hn hx hy])
    (O : List (Ref sig .tc)) (ha : a ∉ O) (hO : ∀ w, Pipeline.arrRef (cfgs p).spec w ∉ O)
    (o : Fin (cfgs p).W) (hin : ∀ w, w ≠ o → ((cfgs p).win w).isOut = false) :
    Pipeline.RDat.RegionSeg (pcfgs (F := F)) adm (rdats m) () defs₀ 𝒱₀ L lv p where
  win := launch.win.to₀
  block_pos := launch.block_pos
  stage_whole := launch.stage_whole
  K := PEmpty
  osem k := k.elim
  ho := Pipeline.OwnSemFacts.none _
  hbody c := (hbody c).toRForget
  hwaits := Pipeline.RDat.hwaits_of_owed_zero _ _ _ _ L lv p fun _ _ => rfl
  pre := T m (hops p) O
  post := T m [] (Pipeline.arrRef (cfgs p).spec o :: v :: O)
  X c := iprop(∃ r, prngReg c r)
  Y c := iprop(∃ r, prngReg c r)
  Z c := iprop(∃ V, ⌜Inv m O c V⌝ ∗ Pipeline.unscopedRest (Ix := Unit) (Name := ℕ) (U := UR sig nD τ) (Lvl := ℕ) (cfgs p).spec c
    (fun b => StableHlo.after (hops p) V b))
  hentry c := by
    rw [Pipeline.ownSems0_none]
    iintro ⟨⟨%V, %hV, Hub, Hp, HO⟩, -, -⟩
    have hsplit := Pipeline.RDat.arrays_of_unscopedBufs (p := p) (pcfgs (F := F)) adm (rdats m) launch.win launch.arr_whole c
      ((rdats m p c).share_full fun _ => rfl) (fun b => StableHlo.after (hops p) V b)
      (fun w => hV.reshape a v he hn hx hy hp ha (hO w))
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists V; isplitr; · ipureintro; exact hV
    iexact Hrest
  hin c := by
    rw [show (rdats m p c).Φ 0 = Pipeline.ΦA (cfgs p).spec c from rfl]; unfold Pipeline.ΦA
    iintro ⟨Hp, -, Hr⟩
    isplitl [Hr]; · iexact Hr
    iexact Hp
  hout c := by
    rw [Pipeline.ownSems0_none, show (rdats m p c).Φ (Fin.last _) = Pipeline.ΦA (cfgs p).spec c from rfl]; unfold Pipeline.ΦA
    iintro ⟨Hr, Hp⟩
    isplitl [Hp]; · iexact Hp
    isplitr; · iempintro
    iexact Hr
  hexit c := by
    iintro ⟨Ha, HO, HY, ⟨%V, %hV, Hrest⟩⟩
    ihave Ha' := (arraysAt_open (rdats m p c) _) $$ Ha
    icases Ha' with ⟨%A, %hA, Ha⟩
    have hne : ∀ w, w ≠ o → (Proc.devRef .tc (Pipeline.arrRef (cfgs p).spec w) : DevRef τ sig) ≠ Proc.devRef .tc (Pipeline.arrRef (cfgs p).spec o) :=
      fun w e => StableHlo.devRef_ne_of_ne fun e' => e (launch.win.arr_inj e')
    have hjoin := Pipeline.unscopedBufs_of_arrays (p := p) (pcfgs (F := F)) adm (Ix := Unit) (Name := ℕ) (U := UR sig nD τ) (Lvl := ℕ)
      launch.win launch.arr_whole c (pdats m) ((pdats m p c).share_full fun _ => rfl)
      (fun b => StableHlo.after (hops p) V b)
      (fun b => Function.update (StableHlo.after (hops p) V) (Proc.devRef .tc (Pipeline.arrRef (cfgs p).spec o)) (A o) b) A
      (fun w => by
        by_cases e : w = o
        · subst e; simp only [Function.update_self]
        · have h := hA w; rw [(rdats m p c).ArrAt_in w (hin w e)] at h
          rw [Function.update_of_ne (hne w e), h]; exact hV.reshape a v he hn hx hy hp ha (hO w))
      (fun b hb => Function.update_of_ne (StableHlo.devRef_ne_of_ne fun e => hb (Finset.mem_image.mpr ⟨o, Finset.mem_univ _, e.symm⟩)) _ _)
    rw [Pipeline.unscopedBufs_held] at hjoin
    have hjoin' : iprop((rdats m p c).arrays A
          ∗ Pipeline.unscopedRest (Ix := Unit) (Name := ℕ) (U := UR sig nD τ) (Lvl := ℕ) (cfgs p).spec c (fun b => StableHlo.after (hops p) V b))
        ⊢ (StableHlo.held (c : Thread nD τ) (Pipeline.ucRefs τ sig)
            (Function.update (StableHlo.after (hops p) V) (Proc.devRef .tc (Pipeline.arrRef (cfgs p).spec o)) (A o)) : sProp 𝕄) := hjoin
    imodintro
    iexists _; isplitr; · ipureintro; exact hV.update a v he hn hx hy hp _ (A o)
    isplitl [Ha Hrest]
    · iapply hjoin'; isplitl [Ha]; · iexact Ha
      iexact Hrest
    isplitl [HY]; · iexact HY
    unfold Pipeline.RDat.owesAt Pipeline.owesWithin
    icases HO with ⟨%W, -, HO⟩; iexists W; iexact HO

end Cert.Kernel.Hand

end
-- ==== Proof.KB.Run.lean ====
import proofs.«182238_j40286793237062_1_alg».proof.Proof.KB.Reg

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The references written before region `k`: two per region.
abbrev wr (k : ℕ) : List (Ref sig .tc) :=
  [main_v11, main_v10, main_v9, main_v8, main_v7, main_v6, main_v5, main_v4, main_v3, main_v2, main_v1, main_v0].drop (12 - 2 * k)

abbrev segs : List (Pipeline.RDat.Seg (pcfgs (F := F)) adm (rdats m) () defs₀ 𝒱₀ L lv) :=
  [ .host (hsegOf m hostOps0 hostOps0_sub hostOps0_fresh (wr 0)),
    .region (regOf m 0 launch0 (fun _ => body_obligation0 _) rfl (wr 0) (by decide) (by decide) 3 (by decide)),
    .host (hsegOf m hostOps1 hostOps1_sub hostOps1_fresh (wr 1)),
    .region (regOf m 1 launch1 (fun _ => body_obligation1 _) rfl (wr 1) (by decide) (by decide) 3 (by decide)),
    .host (hsegOf m hostOps2 hostOps2_sub hostOps2_fresh (wr 2)),
    .region (regOf m 2 launch2 (fun _ => body_obligation2 _) rfl (wr 2) (by decide) (by decide) 3 (by decide)),
    .host (hsegOf m hostOps3 hostOps3_sub hostOps3_fresh (wr 3)),
    .region (regOf m 3 launch3 (fun _ => body_obligation3 _) rfl (wr 3) (by decide) (by decide) 3 (by decide)),
    .host (hsegOf m hostOps4 hostOps4_sub hostOps4_fresh (wr 4)),
    .region (regOf m 4 launch4 (fun _ => body_obligation4 _) rfl (wr 4) (by decide) (by decide) 3 (by decide)),
    .host (hsegOf m hostOps5 hostOps5_sub hostOps5_fresh (wr 5)),
    .region (regOf m 5 launch5 (fun _ => body_obligation5 _) rfl (wr 5) (by decide) (by decide) 3 (by decide)) ]

set_option backward.isDefEq.respectTransparency.types false in
theorem frame : θ_run (Cert.Kernel.defs (F := F)) (onTc (τ := τ) (Cert.Kernel.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.RDat.θ_run_regions_kit_dev (pcfgs (F := F)) adm (rdats m) () cellOf_inj emb₁ defs₀ 𝒱₀ L lv m ρ main (fun _ => segs m)
    (fun c Q => by
      rewrite [main_chain c, Pipeline.RDat.Seg.run_eq_chain]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T m [] (wr 0))
    (Tₙ := fun c => iprop(∃ V, ⌜Inv m (wr 6) c V⌝ ∗ StableHlo.held (c : Thread nD τ) (Pipeline.ucRefs τ sig) V ∗ ∃ r, prngReg c r))
    (hch := fun c => ⟨.rfl, .rfl, .rfl, .rfl, .rfl, .rfl, .rfl, .rfl, .rfl, .rfl, .rfl, .rfl,
      show T m [] (wr 6) c ⊢ iprop((∃ V, ⌜Inv m (wr 6) c V⌝ ∗ StableHlo.held (c : Thread nD τ) (Pipeline.ucRefs τ sig) V ∗ ∃ r, prngReg c r)
        ∗ ∃ W, owes (c : Thread nD τ) (0 : CellTallies nD τ sig Unit) W) from by
      iintro ⟨%V, %hV, Hh, Hp, HO⟩
      isplitl [Hh Hp]
      · iexists V; isplitr; · ipureintro; exact hV
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iexists (V0 m c); isplitr; · ipureintro; exact fun _ _ => rfl
      isplitl [Hh]; · iexact Hh
      isplitl [Hp]; · iexists _; iexact Hp
      iexists ∅; iexact HO)
    (QY := _) (hfin := fun c s' => ?_) (hQ := fun _ h => h)
  iintro ⟨⟨%V, %hV, Hh, -⟩, HSI⟩
  unfold StableHlo.held
  ihave Hr := (pointsTo_read_all (Pipeline.ucRefs τ sig) (fun b => ((c : Thread nD τ).1, b)) V s') $$ [Hh HSI]
  · isplitl [Hh] <;> iassumption
  icases Hr with ⟨%h, HSI⟩
  imodintro
  isplitr
  · ipureintro
    have key : ∀ r : Ref sig .tc, (Proc.devRef .tc r : DevRef τ sig) ∈ Pipeline.ucRefs τ sig → r ∉ wr 6 →
        s'.mem.mem ((c.tc : Thread nD τ).loc r) = m ((c.tc : Thread nD τ).loc r) := fun r hr ho => (h _ hr).trans (hV r ho)
    refine ⟨?_, ?_, ?_, ?_, ?_, ?_, ?_, ?_, ?_, ?_, ?_, ?_, ?_, ?_, ?_, ?_, ?_, ?_⟩ <;>
      exact key _ (Finset.mem_filter.mpr ⟨StableHlo.devRef_mem_tcRefs _, by decide⟩) (by decide)
  · iexact HSI

end Cert.Kernel.Hand

end
-- ==== Proof.Spec.lean ====
import Idealize.ShloMosaic.Lib.ValueIdx

open scoped BigOperators

noncomputable section

namespace Cert.Spec

open Idealize.ShloMosaic Idealize.ShloMosaic.ValueIdx

/-- Entry (a, j) of a dense layer: row a of x against row j of w, summed over the contracted coordinate, plus b(j). -/
def linAt {n k o : Nat} (x : FVec Ideal ⟨2, ![n, k]⟩ .f32) (w : FVec Ideal ⟨2, ![o, k]⟩ .f32) (b : FVec Ideal ⟨1, ![o]⟩ .f32)
    (a : Fin n) (j : Fin o) : EReal :=
  (∑ c : Fin k, x (ix2 a c) * w (ix2 j c)) + b (ix1 j)

def lin {n k o : Nat} (x : FVec Ideal ⟨2, ![n, k]⟩ .f32) (w : FVec Ideal ⟨2, ![o, k]⟩ .f32) (b : FVec Ideal ⟨1, ![o]⟩ .f32) :
    FVec Ideal ⟨2, ![n, o]⟩ .f32 :=
  fun i => linAt x w b (i 0) (i 1)

theorem lin_apply {n k o : Nat} (x : FVec Ideal ⟨2, ![n, k]⟩ .f32) (w : FVec Ideal ⟨2, ![o, k]⟩ .f32) (b : FVec Ideal ⟨1, ![o]⟩ .f32)
    (a : Fin n) (j : Fin o) : lin x w b (ix2 a j) = (∑ c : Fin k, x (ix2 a c) * w (ix2 j c)) + b (ix1 j) := rfl

end Cert.Spec

end
-- ==== Proof.LibDotNT.lean ====
import Idealize.ShloMosaic.Lib.ValueIdx
import Idealize.ShloMosaic.PureOps.Ideal.Laws

open scoped BigOperators

noncomputable section

namespace Cert.LibDotNT

open Idealize.ShloMosaic Idealize.ShloMosaic.ValueIdx

variable {m k n : Nat}

-- Axis 0 of the left operand is free and no axis is a batch axis: its coordinate is the result's row.
theorem lhs_0 (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin 2) ∈ (DotDims.transposedRhs m k n).lhsBatch from List.not_mem_nil),
    dif_pos (show (0 : Fin 2) ∈ (DotDims.transposedRhs m k n).lhsNonContracting from List.mem_singleton.mpr rfl)]
  rfl

-- Likewise axis 0 of the right operand carries the result's column.
theorem rhs_0 (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin 2) ∈ (DotDims.transposedRhs m k n).rhsBatch from List.not_mem_nil),
    dif_pos (show (0 : Fin 2) ∈ (DotDims.transposedRhs m k n).rhsNonContracting from List.mem_singleton.mpr rfl)]
  rfl

-- At result entry (a, b) and contracted coordinate c the two operands are read at (a, c) and (b, c).
theorem sum_contr {φ₁ φ₂ : FTy} (A : FVec Ideal ⟨2, ![m, k]⟩ φ₁) (B : FVec Ideal ⟨2, ![n, k]⟩ φ₂) (a : Fin m) (b : Fin n) :
    (∑ q : (DotDims.transposedRhs m k n).contr.Idx,
        A ((DotDims.transposedRhs m k n).lhsIdx (ix2 a b) q) * B ((DotDims.transposedRhs m k n).rhsIdx (ix2 a b) q))
      = ∑ c : Fin k, A (ix2 a c) * B (ix2 b c) := by
  rw [← Equiv.sum_comp (contrEquiv1 (DotDims.transposedRhs m k n) k rfl rfl).symm]
  refine Finset.sum_congr rfl fun c _ => ?_
  have hk := contrEquiv1_symm_val (DotDims.transposedRhs m k n) k rfl rfl c
  congr 2 <;> funext t <;> apply Fin.ext
  · match t with
    | ⟨0, _⟩ => exact lhs_0 _ _
    | ⟨1, _⟩ => exact ((DotDims.transposedRhs m k n).lhsIdx_val_of_single rfl _ _).trans hk
  · match t with
    | ⟨0, _⟩ => exact rhs_0 _ _
    | ⟨1, _⟩ => exact ((DotDims.transposedRhs m k n).rhsIdx_val_of_single rfl _ _).trans hk

-- The host's product of an m×k by an n×k matrix, both contracted on axis 1, is the sum of the rows' products.
theorem dotGeneral_nt_apply {φ₁ φ₂ : FTy} (prec : Option ContractPrecision) (A : FVec Ideal ⟨2, ![m, k]⟩ φ₁)
    (B : FVec Ideal ⟨2, ![n, k]⟩ φ₂) (a : Fin m) (b : Fin n) :
    Host.dotGeneral (F := Ideal) (DotDims.transposedRhs m k n) prec A B (ix2 a b) = ∑ c : Fin k, A (ix2 a c) * B (ix2 b c) :=
  (Ideal.dotGeneral_apply _ prec _ A B _).trans (sum_contr A B a b)

-- The same product accumulated into the zero block is the same sum.
theorem matmul_nt_zero_apply {φ₁ φ₂ : FTy} (prec : Option ContractPrecision) (A : FVec Ideal ⟨2, ![m, k]⟩ φ₁)
    (B : FVec Ideal ⟨2, ![n, k]⟩ φ₂) (a : Fin m) (b : Fin n) :
    matmul (F := Ideal) (DotDims.transposedRhs m k n) prec A B (constant ⟨2, ![m, n]⟩ .f32 0x00000000#32) (ix2 a b)
      = ∑ c : Fin k, A (ix2 a c) * B (ix2 b c) :=
  (Ideal.matmul_constant_zero_apply _ prec A B _).trans (sum_contr A B a b)

end Cert.LibDotNT

end
-- ==== Proof.Ref.Lin.lean ====
import proofs.«182238_j40286793237062_1_alg».proof.Proof.Spec
import proofs.«182238_j40286793237062_1_alg».proof.Proof.LibDotNT
import Idealize.ShloMosaic.Lib.Pipeline.Value

noncomputable section

namespace Cert.ReferenceIdeal.Hand

open Idealize.ShloMosaic Idealize.ShloMosaic.ValueIdx

-- Entry (a, j) of the host product is the sum over c of x(a, c) · w(j, c); the bias, laid along a row and repeated down the rows, reads b(j) there.
theorem lin {n k : Nat} (h₁ : (⟨1, ![128]⟩ : Shape).BroadcastsInDim ⟨2, ![1, 128]⟩ ![1])
    (h₂ : (⟨2, ![1, 128]⟩ : Shape).BroadcastsInDim ⟨2, ![n, 128]⟩ ![0, 1])
    (x : FVec Ideal ⟨2, ![n, k]⟩ .f32) (w : FVec Ideal ⟨2, ![128, k]⟩ .f32) (b : FVec Ideal ⟨1, ![128]⟩ .f32) :
    addf (Host.dotGeneral (F := Ideal) (DotDims.transposedRhs n k 128) none x w)
        (broadcastInDim _ ![0, 1] h₂ (broadcastInDim _ ![1] h₁ b))
      = Cert.Spec.lin x w b := by
  funext i
  obtain ⟨a, j, rfl⟩ : ∃ (a : Fin n) (j : Fin 128), i = ix2 a j := ⟨i 0, i 1, eq_ix2 i⟩
  rw [addf_apply, Cert.Spec.lin_apply, Cert.LibDotNT.dotGeneral_nt_apply,
    broadcastInDim_apply _ h₂ _ (ix2 a j) (ix2 (0 : Fin 1) j) (fun t => match t with
      | ⟨0, _⟩ => (if_pos rfl).symm
      | ⟨1, _⟩ => (if_neg (by decide : ¬(128 : Nat) = 1)).symm),
    broadcastInDim_apply _ h₁ b (ix2 (0 : Fin 1) j) (ix1 j) (fun t => match t with
      | ⟨0, _⟩ => (if_neg (by decide : ¬(128 : Nat) = 1)).symm)]

end Cert.ReferenceIdeal.Hand

end
-- ==== Proof.Ref.Run.lean ====
import proofs.«182238_j40286793237062_1_alg».proof.Proof.Gen.ReferenceIdeal.Run
import proofs.«182238_j40286793237062_1_alg».proof.Proof.Spec
import proofs.«182238_j40286793237062_1_alg».proof.Proof.Ref.Lin

noncomputable section

namespace Cert.ReferenceIdeal.Hand

open Cert.ReferenceIdeal Cert.ReferenceIdeal.Gen Idealize.ShloMosaic Idealize.ShloMosaic.TcCoe Idealize.SL.Sem Idealize.ShloMosaic.StableHlo

-- Each result of the run is the host product plus the repeated bias, which is the dense layer.
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.Spec.lin (m ((c.tc : Thread nD τ).loc main_arg0) : FVec Ideal S100000x128 .f32) (m ((c.tc : Thread nD τ).loc main_arg6) : FVec Ideal S128x128 .f32) (m ((c.tc : Thread nD τ).loc main_arg7) : FVec Ideal S128 .f32)
      ∧ r.2.mem ((c.tc : Thread nD τ).loc main_v7) = Cert.Spec.lin (m ((c.tc : Thread nD τ).loc main_arg1) : FVec Ideal S250000x256 .f32) (m ((c.tc : Thread nD τ).loc main_arg8) : FVec Ideal S128x256 .f32) (m ((c.tc : Thread nD τ).loc main_arg9) : FVec Ideal S128 .f32)
      ∧ r.2.mem ((c.tc : Thread nD τ).loc main_v11) = Cert.Spec.lin (m ((c.tc : Thread nD τ).loc main_arg2) : FVec Ideal S25000x64 .f32) (m ((c.tc : Thread nD τ).loc main_arg10) : FVec Ideal S128x64 .f32) (m ((c.tc : Thread nD τ).loc main_arg11) : FVec Ideal S128 .f32)
      ∧ r.2.mem ((c.tc : Thread nD τ).loc main_v15) = Cert.Spec.lin (m ((c.tc : Thread nD τ).loc main_arg3) : FVec Ideal S50000x128 .f32) (m ((c.tc : Thread nD τ).loc main_arg12) : FVec Ideal S128x128 .f32) (m ((c.tc : Thread nD τ).loc main_arg13) : FVec Ideal S128 .f32)
      ∧ r.2.mem ((c.tc : Thread nD τ).loc main_v19) = Cert.Spec.lin (m ((c.tc : Thread nD τ).loc main_arg4) : FVec Ideal S75000x64 .f32) (m ((c.tc : Thread nD τ).loc main_arg14) : FVec Ideal S128x64 .f32) (m ((c.tc : Thread nD τ).loc main_arg15) : FVec Ideal S128 .f32)
      ∧ r.2.mem ((c.tc : Thread nD τ).loc main_v23) = Cert.Spec.lin (m ((c.tc : Thread nD τ).loc main_arg5) : FVec Ideal S150000x128 .f32) (m ((c.tc : Thread nD τ).loc main_arg16) : FVec Ideal S128x128 .f32) (m ((c.tc : Thread nD τ).loc main_arg17) : FVec Ideal S128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (lin _ _ _ _ _),
      (h c).2.1.trans (lin _ _ _ _ _),
      (h c).2.2.1.trans (lin _ _ _ _ _),
      (h c).2.2.2.1.trans (lin _ _ _ _ _),
      (h c).2.2.2.2.1.trans (lin _ _ _ _ _),
      (h c).2.2.2.2.2.1.trans (lin _ _ _ _ _),
      (h c).2.2.2.2.2.2⟩)
    (Cert.ReferenceIdeal.Value.run (F := Ideal) m ρ)

end Cert.ReferenceIdeal.Hand

end
-- ==== Proof.KI.State.lean ====
import proofs.«182238_j40286793237062_1_alg».proof.Proof.Gen.KernelIdeal.Regions
import Idealize.ShloMosaic.Lib.Pipeline.FrameBody
import Idealize.ShloMosaic.Lib.Pipeline.RegionsLoop
import Idealize.ShloMosaic.Lib.Pipeline.Kit
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

local notation "𝕄" => MT nD τ sig Unit (Elt Ideal) ℕ (UR sig nD τ) ℕ

abbrev runL : GSem nD τ sig → Finset Unit := fun _ => ∅
abbrev runLv : GSem nD τ sig → Unit → ℕ := fun _ _ => 0

abbrev runR (c : Dev nD) : sProp 𝕄 := iprop((∃ r, prngReg c r) ∗ ∃ W, owes (c : Thread nD τ) (0 : CellTallies nD τ sig Unit) W)

-- A reference with the contents it ends at on every core.
abbrev Res : Type := (r : Ref sig .tc) × ((c : Dev nD) → Buf (Elt Ideal) ((c : Thread nD τ).loc r))

-- Outside `O` every reference holds its launch contents; each reference of `Rs` is in `O` and holds its named contents.
def Inv (O : List (Ref sig .tc)) (Rs : List Res) (c : Dev nD) (V : Valuation τ sig (Elt Ideal)) : Prop :=
  (∀ r, r ∉ O → V (Proc.devRef .tc r) = m ((c : Thread nD τ).loc r)) ∧ ∀ x ∈ Rs, x.1 ∈ O ∧ V (Proc.devRef .tc x.1) = x.2 c

-- The references hold `ops` applied to some such valuation.
abbrev T (ops : List (HloOp τ sig (Elt Ideal))) (O : List (Ref sig .tc)) (Rs : List Res) (c : Dev nD) : sProp 𝕄 :=
  iprop(∃ V, ⌜Inv m O Rs c V⌝ ∗ StableHlo.held (c : Thread nD τ) (Pipeline.ucRefs τ sig) (StableHlo.after ops V) ∗ runR c)

variable {m}

-- A reshape reads `a` and writes `v`: applied to two valuations equal outside `O`, with `a` outside `O`, its results are equal outside `O`.
theorem Inv.reshape {O : List (Ref sig .tc)} {Rs : List Res} {c : Dev nD} {V : Valuation τ sig (Elt Ideal)} (h : Inv m O Rs c V)
    {ops : List (HloOp τ sig (Elt Ideal))} (a v : Ref sig .tc) (he hn hx hy) (hp : ops = [StableHlo.reshape a v he hn hx hy])
    (ha : a ∉ O) {r : Ref sig .tc} (hr : r ∉ O) :
    StableHlo.after ops (V0 m c) (Proc.devRef .tc r) = StableHlo.after ops V (Proc.devRef .tc r) := by
  subst hp; simp only [StableHlo.after_cons, StableHlo.after_nil]
  by_cases e : r = v
  · subst e; rw [StableHlo.reshape_result, StableHlo.reshape_result, h.1 a ha]
  · rw [StableHlo.reshape_result_ne _ _ _ _ _ _ _ e, StableHlo.reshape_result_ne _ _ _ _ _ _ _ e, h.1 r hr]

-- Overwriting `x` with `G` after that reshape changes nothing outside `x`, `v` and `O`, and names `x`.
theorem Inv.update {O : List (Ref sig .tc)} {Rs : List Res} {c : Dev nD} {V : Valuation τ sig (Elt Ideal)} (h : Inv m O Rs c V)
    {ops : List (HloOp τ sig (Elt Ideal))} (a v : Ref sig .tc) (he hn hx hy) (hp : ops = [StableHlo.reshape a v he hn hx hy])
    (x : Ref sig .tc) (G : (c : Dev nD) → Buf (Elt Ideal) ((c : Thread nD τ).loc x)) (hxO : x ∉ O) (hvO : v ∉ O) :
    Inv m (x :: v :: O) (⟨x, G⟩ :: Rs) c (Function.update (StableHlo.after ops V) (Proc.devRef .tc x) (G c)) := by
  subst hp
  have key : ∀ r, r ≠ x → r ≠ v → Function.update (StableHlo.after [StableHlo.reshape a v he hn hx hy] V) (Proc.devRef .tc x) (G c) (Proc.devRef .tc r)
      = V (Proc.devRef .tc r) := fun r h1 h2 => by
    rw [Function.update_of_ne (StableHlo.devRef_ne_of_ne h1)]
    simp only [StableHlo.after_cons, StableHlo.after_nil]
    exact StableHlo.reshape_result_ne _ _ _ _ _ _ _ h2
  refine ⟨fun r hr => (key r (List.ne_of_not_mem_cons hr) (List.ne_of_not_mem_cons (List.not_mem_of_not_mem_cons hr))).trans
    (h.1 r (List.not_mem_of_not_mem_cons (List.not_mem_of_not_mem_cons hr))), fun y hy => ?_⟩
  rcases List.mem_cons.mp hy with rfl | hy
  · exact ⟨List.mem_cons_self, by simp only [Function.update_self]⟩
  · have hO := (h.2 y hy).1
    exact ⟨List.mem_cons_of_mem _ (List.mem_cons_of_mem _ hO), (key y.1 (fun e => hxO (e ▸ hO)) (fun e => hvO (e ▸ hO))).trans (h.2 y hy).2⟩

variable (m)

set_option backward.isDefEq.respectTransparency.types false in
-- The rule for a list of operations, used at whichever valuation the state holds.
def hsegOf (ops : List (HloOp τ sig (Elt Ideal))) (hsub : ops.Forall fun op => op.bufs ⊆ StableHlo.tcRefs τ sig)
    (hfresh : ops.Forall fun op => op.fresh = ∅) (O : List (Ref sig .tc)) (Rs : List Res) :
    Pipeline.HostSeg (Ix := Unit) (Name := ℕ) (U := UR sig nD τ) (Lvl := ℕ) (pcfgs (F := Ideal)) defs₀ Variants.none runL runLv where
  prog := StableHlo.seq ops
  pre := T m [] O Rs
  post := T m ops O Rs
  run c {β} k K := by
    iintro ⟨Hk, Hb, ⟨%V, %hV, Hpre⟩, Hlev⟩
    have hrun := (Pipeline.HostSeg.ofOps (pcfgs (F := Ideal)) defs₀ Variants.none runL runLv (Pipeline.ucRefs τ sig) ops
      (fun op h => Pipeline.sub_ucRefs op ((List.forall_iff_forall_mem.mp hsub) op h))
      (List.forall_iff_forall_mem.mp hfresh) (fun _ => V) runR).run c k K
    dsimp only [Pipeline.HostSeg.ofOps] at hrun
    iapply hrun
    isplitl [Hk]
    · iintro ⟨Hb, Hpost⟩; iapply Hk; isplitl [Hb]; · iexact Hb
      iexists V; isplitr; · ipureintro; exact hV
      iexact Hpost
    isplitl [Hb]; · iexact Hb
    isplitl [Hpre]; · iexact Hpre
    iexact Hlev

end Cert.KernelIdeal.Hand

end
-- ==== Proof.KI.Dat0.lean ====
import proofs.«182238_j40286793237062_1_alg».proof.Proof.Gen.KernelIdeal.Launch
import proofs.«182238_j40286793237062_1_alg».proof.Proof.Gen.KernelIdeal.Skeleton
import proofs.«182238_j40286793237062_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def xblk0 (c : Dev nD) (t : Fin cfg0.N) : (win0_0.xblock (grid0.coords t)).Idx → Elt F .f32 :=
  (win0_0.blk t).view.read (Elt F) (V c main_arg0)

def xfill0 (c : Dev nD) (t : Fin cfg0.N) : Vec F S8192x128 .f32 :=
  win0_0.fill (grid0.coords t) (fun _ => Scalar.ofBits .f32 0#32) (xblk0 V c t)

def wblk0 (c : Dev nD) : Vec F S128x128 .f32 := V c main_arg6
def bblk0 (c : Dev nD) : Vec F S1x128 .f32 := V c main_v0

def oblk0 (c : Dev nD) (t : Fin cfg0.N) : Vec F S8192x128 .f32 :=
  k0_pay1 (xfill0 V c t) (wblk0 V c) (bblk0 V c)

/-- After the body: the rows' block with zeros in place of the rows beyond the array's last, the whole weight and bias row, their payload. -/
def dat0 (c : Dev nD) : Dat τ (Elt F) Unit ℕ (UR sig nD τ) ℕ cfg0 c where
  A w := V c (Pipeline.arrRef spec0 w)
  after w t := match w with
    | ⟨0, _⟩ => xfill0 V c t
    | ⟨1, _⟩ => wblk0 V c
    | ⟨2, _⟩ => bblk0 V c
    | ⟨3, _⟩ => oblk0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xfill0 V c t := by dsimp only [dat0]
theorem after0_1 (c : Dev nD) (t : Fin cfg0.N) : (dat0 V c).after 1 t = wblk0 V c := by dsimp only [dat0]
theorem after0_2 (c : Dev nD) (t : Fin cfg0.N) : (dat0 V c).after 2 t = bblk0 V c := by dsimp only [dat0]
theorem after0_3 (c : Dev nD) (t : Fin cfg0.N) : (dat0 V c).after 3 t = oblk0 V c t := by dsimp only [dat0]

end Cert.KernelIdeal.Hand

end
-- ==== Proof.KI.Dat1.lean ====
import proofs.«182238_j40286793237062_1_alg».proof.Proof.Gen.KernelIdeal.Launch
import proofs.«182238_j40286793237062_1_alg».proof.Proof.Gen.KernelIdeal.Skeleton
import proofs.«182238_j40286793237062_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def xblk1 (c : Dev nD) (t : Fin cfg1.N) : (win1_0.xblock (grid1.coords t)).Idx → Elt F .f32 :=
  (win1_0.blk t).view.read (Elt F) (V c main_arg1)

def xfill1 (c : Dev nD) (t : Fin cfg1.N) : Vec F S8192x256 .f32 :=
  win1_0.fill (grid1.coords t) (fun _ => Scalar.ofBits .f32 0#32) (xblk1 V c t)

def wblk1 (c : Dev nD) : Vec F S128x256 .f32 := V c main_arg8
def bblk1 (c : Dev nD) : Vec F S1x128 .f32 := V c main_v2

def oblk1 (c : Dev nD) (t : Fin cfg1.N) : Vec F S8192x128 .f32 :=
  k1_pay1 (xfill1 V c t) (wblk1 V c) (bblk1 V c)

/-- After the body: the rows' block with zeros in place of the rows beyond the array's last, the whole weight and bias row, their payload. -/
def dat1 (c : Dev nD) : Dat τ (Elt F) Unit ℕ (UR sig nD τ) ℕ cfg1 c where
  A w := V c (Pipeline.arrRef spec1 w)
  after w t := match w with
    | ⟨0, _⟩ => xfill1 V c t
    | ⟨1, _⟩ => wblk1 V c
    | ⟨2, _⟩ => bblk1 V c
    | ⟨3, _⟩ => oblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xfill1 V c t := by dsimp only [dat1]
theorem after1_1 (c : Dev nD) (t : Fin cfg1.N) : (dat1 V c).after 1 t = wblk1 V c := by dsimp only [dat1]
theorem after1_2 (c : Dev nD) (t : Fin cfg1.N) : (dat1 V c).after 2 t = bblk1 V c := by dsimp only [dat1]
theorem after1_3 (c : Dev nD) (t : Fin cfg1.N) : (dat1 V c).after 3 t = oblk1 V c t := by dsimp only [dat1]

end Cert.KernelIdeal.Hand

end
-- ==== Proof.KI.Dat2.lean ====
import proofs.«182238_j40286793237062_1_alg».proof.Proof.Gen.KernelIdeal.Launch
import proofs.«182238_j40286793237062_1_alg».proof.Proof.Gen.KernelIdeal.Skeleton
import proofs.«182238_j40286793237062_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def xblk2 (c : Dev nD) (t : Fin cfg2.N) : (win2_0.xblock (grid2.coords t)).Idx → Elt F .f32 :=
  (win2_0.blk t).view.read (Elt F) (V c main_arg2)

def xfill2 (c : Dev nD) (t : Fin cfg2.N) : Vec F S8192x64 .f32 :=
  win2_0.fill (grid2.coords t) (fun _ => Scalar.ofBits .f32 0#32) (xblk2 V c t)

def wblk2 (c : Dev nD) : Vec F S128x64 .f32 := V c main_arg10
def bblk2 (c : Dev nD) : Vec F S1x128 .f32 := V c main_v4

def oblk2 (c : Dev nD) (t : Fin cfg2.N) : Vec F S8192x128 .f32 :=
  k2_pay1 (xfill2 V c t) (wblk2 V c) (bblk2 V c)

/-- After the body: the rows' block with zeros in place of the rows beyond the array's last, the whole weight and bias row, their payload. -/
def dat2 (c : Dev nD) : Dat τ (Elt F) Unit ℕ (UR sig nD τ) ℕ cfg2 c where
  A w := V c (Pipeline.arrRef spec2 w)
  after w t := match w with
    | ⟨0, _⟩ => xfill2 V c t
    | ⟨1, _⟩ => wblk2 V c
    | ⟨2, _⟩ => bblk2 V c
    | ⟨3, _⟩ => oblk2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = xfill2 V c t := by dsimp only [dat2]
theorem after2_1 (c : Dev nD) (t : Fin cfg2.N) : (dat2 V c).after 1 t = wblk2 V c := by dsimp only [dat2]
theorem after2_2 (c : Dev nD) (t : Fin cfg2.N) : (dat2 V c).after 2 t = bblk2 V c := by dsimp only [dat2]
theorem after2_3 (c : Dev nD) (t : Fin cfg2.N) : (dat2 V c).after 3 t = oblk2 V c t := by dsimp only [dat2]

end Cert.KernelIdeal.Hand

end
-- ==== Proof.KI.Dat3.lean ====
import proofs.«182238_j40286793237062_1_alg».proof.Proof.Gen.KernelIdeal.Launch
import proofs.«182238_j40286793237062_1_alg».proof.Proof.Gen.KernelIdeal.Skeleton
import proofs.«182238_j40286793237062_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def xblk3 (c : Dev nD) (t : Fin cfg3.N) : (win3_0.xblock (grid3.coords t)).Idx → Elt F .f32 :=
  (win3_0.blk t).view.read (Elt F) (V c main_arg3)

def xfill3 (c : Dev nD) (t : Fin cfg3.N) : Vec F S8192x128 .f32 :=
  win3_0.fill (grid3.coords t) (fun _ => Scalar.ofBits .f32 0#32) (xblk3 V c t)

def wblk3 (c : Dev nD) : Vec F S128x128 .f32 := V c main_arg12
def bblk3 (c : Dev nD) : Vec F S1x128 .f32 := V c main_v6

def oblk3 (c : Dev nD) (t : Fin cfg3.N) : Vec F S8192x128 .f32 :=
  k3_pay1 (xfill3 V c t) (wblk3 V c) (bblk3 V c)

/-- After the body: the rows' block with zeros in place of the rows beyond the array's last, the whole weight and bias row, their payload. -/
def dat3 (c : Dev nD) : Dat τ (Elt F) Unit ℕ (UR sig nD τ) ℕ cfg3 c where
  A w := V c (Pipeline.arrRef spec3 w)
  after w t := match w with
    | ⟨0, _⟩ => xfill3 V c t
    | ⟨1, _⟩ => wblk3 V c
    | ⟨2, _⟩ => bblk3 V c
    | ⟨3, _⟩ => oblk3 V c t
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = xfill3 V c t := by dsimp only [dat3]
theorem after3_1 (c : Dev nD) (t : Fin cfg3.N) : (dat3 V c).after 1 t = wblk3 V c := by dsimp only [dat3]
theorem after3_2 (c : Dev nD) (t : Fin cfg3.N) : (dat3 V c).after 2 t = bblk3 V c := by dsimp only [dat3]
theorem after3_3 (c : Dev nD) (t : Fin cfg3.N) : (dat3 V c).after 3 t = oblk3 V c t := by dsimp only [dat3]

end Cert.KernelIdeal.Hand

end
-- ==== Proof.KI.Dat4.lean ====
import proofs.«182238_j40286793237062_1_alg».proof.Proof.Gen.KernelIdeal.Launch
import proofs.«182238_j40286793237062_1_alg».proof.Proof.Gen.KernelIdeal.Skeleton
import proofs.«182238_j40286793237062_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def xblk4 (c : Dev nD) (t : Fin cfg4.N) : (win4_0.xblock (grid4.coords t)).Idx → Elt F .f32 :=
  (win4_0.blk t).view.read (Elt F) (V c main_arg4)

def xfill4 (c : Dev nD) (t : Fin cfg4.N) : Vec F S8192x64 .f32 :=
  win4_0.fill (grid4.coords t) (fun _ => Scalar.ofBits .f32 0#32) (xblk4 V c t)

def wblk4 (c : Dev nD) : Vec F S128x64 .f32 := V c main_arg14
def bblk4 (c : Dev nD) : Vec F S1x128 .f32 := V c main_v8

def oblk4 (c : Dev nD) (t : Fin cfg4.N) : Vec F S8192x128 .f32 :=
  k4_pay1 (xfill4 V c t) (wblk4 V c) (bblk4 V c)

/-- After the body: the rows' block with zeros in place of the rows beyond the array's last, the whole weight and bias row, their payload. -/
def dat4 (c : Dev nD) : Dat τ (Elt F) Unit ℕ (UR sig nD τ) ℕ cfg4 c where
  A w := V c (Pipeline.arrRef spec4 w)
  after w t := match w with
    | ⟨0, _⟩ => xfill4 V c t
    | ⟨1, _⟩ => wblk4 V c
    | ⟨2, _⟩ => bblk4 V c
    | ⟨3, _⟩ => oblk4 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = xfill4 V c t := by dsimp only [dat4]
theorem after4_1 (c : Dev nD) (t : Fin cfg4.N) : (dat4 V c).after 1 t = wblk4 V c := by dsimp only [dat4]
theorem after4_2 (c : Dev nD) (t : Fin cfg4.N) : (dat4 V c).after 2 t = bblk4 V c := by dsimp only [dat4]
theorem after4_3 (c : Dev nD) (t : Fin cfg4.N) : (dat4 V c).after 3 t = oblk4 V c t := by dsimp only [dat4]

end Cert.KernelIdeal.Hand

end
-- ==== Proof.KI.Dat5.lean ====
import proofs.«182238_j40286793237062_1_alg».proof.Proof.Gen.KernelIdeal.Launch
import proofs.«182238_j40286793237062_1_alg».proof.Proof.Gen.KernelIdeal.Skeleton
import proofs.«182238_j40286793237062_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def xblk5 (c : Dev nD) (t : Fin cfg5.N) : (win5_0.xblock (grid5.coords t)).Idx → Elt F .f32 :=
  (win5_0.blk t).view.read (Elt F) (V c main_arg5)

def xfill5 (c : Dev nD) (t : Fin cfg5.N) : Vec F S8192x128 .f32 :=
  win5_0.fill (grid5.coords t) (fun _ => Scalar.ofBits .f32 0#32) (xblk5 V c t)

def wblk5 (c : Dev nD) : Vec F S128x128 .f32 := V c main_arg16
def bblk5 (c : Dev nD) : Vec F S1x128 .f32 := V c main_v10

def oblk5 (c : Dev nD) (t : Fin cfg5.N) : Vec F S8192x128 .f32 :=
  k5_pay1 (xfill5 V c t) (wblk5 V c) (bblk5 V c)

/-- After the body: the rows' block with zeros in place of the rows beyond the array's last, the whole weight and bias row, their payload. -/
def dat5 (c : Dev nD) : Dat τ (Elt F) Unit ℕ (UR sig nD τ) ℕ cfg5 c where
  A w := V c (Pipeline.arrRef spec5 w)
  after w t := match w with
    | ⟨0, _⟩ => xfill5 V c t
    | ⟨1, _⟩ => wblk5 V c
    | ⟨2, _⟩ => bblk5 V c
    | ⟨3, _⟩ => oblk5 V c t
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = xfill5 V c t := by dsimp only [dat5]
theorem after5_1 (c : Dev nD) (t : Fin cfg5.N) : (dat5 V c).after 1 t = wblk5 V c := by dsimp only [dat5]
theorem after5_2 (c : Dev nD) (t : Fin cfg5.N) : (dat5 V c).after 2 t = bblk5 V c := by dsimp only [dat5]
theorem after5_3 (c : Dev nD) (t : Fin cfg5.N) : (dat5 V c).after 3 t = oblk5 V c t := by dsimp only [dat5]

end Cert.KernelIdeal.Hand

end
-- ==== Proof.KI.Reg.lean ====
import proofs.«182238_j40286793237062_1_alg».proof.Proof.KI.State
import proofs.«182238_j40286793237062_1_alg».proof.Proof.KI.Dat0
import proofs.«182238_j40286793237062_1_alg».proof.Proof.KI.Dat1
import proofs.«182238_j40286793237062_1_alg».proof.Proof.KI.Dat2
import proofs.«182238_j40286793237062_1_alg».proof.Proof.KI.Dat3
import proofs.«182238_j40286793237062_1_alg».proof.Proof.KI.Dat4
import proofs.«182238_j40286793237062_1_alg».proof.Proof.KI.Dat5

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

local notation "𝕄" => MT nD τ sig Unit (Elt Ideal) ℕ (UR sig nD τ) ℕ

-- The reshape before each region.
abbrev hops : Fin 6 → List (HloOp τ sig (Elt Ideal)) := ![hostOps0, hostOps1, hostOps2, hostOps3, hostOps4, hostOps5]

-- What a region finds: its reshape applied to the launch memory.
abbrev Vent (p : Fin 6) (c : Dev nD) (b : Ref sig .tc) : Buf (Elt Ideal) ((c : Thread nD τ).loc b) := StableHlo.after (hops p) (V0 m c) b

def pdats : (p : Fin 6) → (c : Dev nD) → Dat τ (Elt Ideal) Unit ℕ (UR sig nD τ) ℕ (Pipeline.pin (pcfgs (F := Ideal)) adm p) c
  | ⟨0, _⟩ => dat0 (Vent m 0)
  | ⟨1, _⟩ => dat1 (Vent m 1)
  | ⟨2, _⟩ => dat2 (Vent m 2)
  | ⟨3, _⟩ => dat3 (Vent m 3)
  | ⟨4, _⟩ => dat4 (Vent m 4)
  | ⟨5, _⟩ => dat5 (Vent m 5)

set_option backward.isDefEq.respectTransparency.types false in
-- Entered after the reshape of `a` into `v`; no array of the region is in `O`, and only window `o` is written: it ends named.
def regOf (p : Fin 6) (launch : Pipeline.LaunchFacts (nD := nD) (τ := τ) cfgs p)
    (hbody : ∀ c, BodyObligationLoose (pdats m p c) (defs₀ (F := Ideal)) Variants.none () Set.univ)
    (hΦ : ∀ c t, (pdats m p c).Φ t = Pipeline.ΦA (cfgs p).spec c)
    (hsh : ∀ c w, (pdats m p c).share w = fullShare)
    (howed : ∀ c t, (pdats m p c).owed t = 0)
    (hrec : ∀ c, (pdats m p c).recorded 0 = Set.univ)
    (hA : ∀ c w, (pdats m p c).A w = Vent m p c (Pipeline.arrRef (cfgs p).spec w))
    {a v : Ref sig .tc} {he hn hx hy} (hp : hops p = [StableHlo.reshape a v he hn hx hy])
    (O : List (Ref sig .tc)) (Rs : List Res) (ha : a ∉ O) (hv : v ∉ O) (hO : ∀ w, Pipeline.arrRef (cfgs p).spec w ∉ O) (o : Fin (cfgs p).W) (hin : ∀ w, w ≠ o → ((cfgs p).win w).isOut = false) :
    Pipeline.RegionSeg (pcfgs (F := Ideal)) adm (pdats m) () defs₀ Variants.none runL runLv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ runL runLv p howed
  pre := T m (hops p) O Rs
  post := T m [] (Pipeline.arrRef (cfgs p).spec o :: v :: O) (⟨Pipeline.arrRef (cfgs p).spec o, fun c => (pdats m p c).arrAt o (cfgs p).N⟩ :: Rs)
  X c := iprop(∃ r, prngReg c r)
  Y c := iprop(∃ r, prngReg c r)
  Z c := iprop(∃ V, ⌜Inv m O Rs c V⌝ ∗ Pipeline.unscopedRest (Ix := Unit) (Name := ℕ) (U := UR sig nD τ) (Lvl := ℕ) (cfgs p).spec c
    (fun b => StableHlo.after (hops p) V b))
  hentry c := by
    rw [Pipeline.ownSems0_none]
    iintro ⟨⟨%V, %hV, Hub, Hp, HO⟩, -, -⟩
    have hsplit := Pipeline.arrays_of_unscopedBufs (p := p) (pcfgs (F := Ideal)) adm (pdats m) launch.win launch.arr_whole c
      (hsh c) (fun b => StableHlo.after (hops p) V b) (fun w => (hA c w).trans (hV.reshape a v he hn hx hy hp ha (hO w)))
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl ((hrec c).symm ▸ Set.mem_univ _)
      iexact HO
    isplitl [Hp]; · iexact Hp
    iexists V; isplitr; · ipureintro; exact hV
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    iintro ⟨Ha, HO, HY, ⟨%V, %hV, Hrest⟩⟩
    have hne : ∀ w, w ≠ o → (Proc.devRef .tc (Pipeline.arrRef (cfgs p).spec w) : DevRef τ sig) ≠ Proc.devRef .tc (Pipeline.arrRef (cfgs p).spec o) :=
      fun w e => StableHlo.devRef_ne_of_ne fun e' => e (launch.win.arr_inj e')
    have hjoin := Pipeline.unscopedBufs_of_arrays (p := p) (pcfgs (F := Ideal)) adm (Ix := Unit) (Name := ℕ) (U := UR sig nD τ) (Lvl := ℕ)
      launch.win launch.arr_whole c (pdats m) (hsh c)
      (fun b => StableHlo.after (hops p) V b)
      (fun b => Function.update (StableHlo.after (hops p) V) (Proc.devRef .tc (Pipeline.arrRef (cfgs p).spec o)) ((pdats m p c).arrAt o (cfgs p).N) b)
      ((pdats m p c).arrAt · (cfgs p).N)
      (fun w => by
        by_cases e : w = o
        · subst e; simp only [Function.update_self]
        · rw [Function.update_of_ne (hne w e), (pdats m p c).arrAt_in w (hin w e) _, hA c w]; exact hV.reshape a v he hn hx hy hp ha (hO w))
      (fun b hb => Function.update_of_ne (StableHlo.devRef_ne_of_ne fun e => hb (Finset.mem_image.mpr ⟨o, Finset.mem_univ _, e.symm⟩)) _ _)
    rw [Pipeline.unscopedBufs_held] at hjoin
    imodintro
    iexists _; isplitr
    · ipureintro; exact hV.update a v he hn hx hy hp _ (fun c => (pdats m p c).arrAt o (cfgs p).N) (hO o) hv
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.Pay.lean ====
import proofs.«182238_j40286793237062_1_alg».proof.Proof.Gen.KernelIdeal.Skeleton
import proofs.«182238_j40286793237062_1_alg».proof.Proof.LibDotNT
import Idealize.ShloMosaic.Lib.Pipeline.Value

open scoped BigOperators

noncomputable section

namespace Cert.KernelIdeal.Hand

open Cert.KernelIdeal Cert.KernelIdeal.Gen
open Idealize.ShloMosaic Idealize.ShloMosaic.ValueIdx

-- The six payloads k0_pay1 … k5_pay1 unfold to this one expression, at k = 128, 256, 64, 128, 64, 128.
def pay {k : Nat} (X : FVec Ideal ⟨2, ![8192, k]⟩ .f32) (W : FVec Ideal ⟨2, ![128, k]⟩ .f32) (B : FVec Ideal S1x128 .f32) :
    FVec Ideal S8192x128 .f32 :=
  addf (matmul (DotDims.transposedRhs 8192 k 128) none (truncf .bf16 X bitsLt_bf16_f32) (truncf .bf16 W bitsLt_bf16_f32)
      (constant S8192x128 .f32 0x00000000#32))
    (broadcastTo S8192x128 (shapeCast S1x128 B shapeCasts_S1x128_S1x128) broadcasts_S1x128_S8192x128)

-- Rounding to the narrow format is the identity at the ideal values, the product into the zero block is the plain sum, and the broadcast reads the bias row.
theorem pay_apply {k : Nat} (X : FVec Ideal ⟨2, ![8192, k]⟩ .f32) (W : FVec Ideal ⟨2, ![128, k]⟩ .f32) (B : FVec Ideal S1x128 .f32)
    (a : Fin 8192) (j : Fin 128) :
    pay X W B (ix2 a j) = (∑ c : Fin k, X (ix2 a c) * W (ix2 j c)) + B (ix2 (0 : Fin 1) j) := by
  unfold pay
  rw [shapeCast_self, addf_apply, Cert.LibDotNT.matmul_nt_zero_apply,
    broadcastTo_apply B _ (ix2 a j) (ix2 (0 : Fin 1) j) (fun t => match t with
      | ⟨0, _⟩ => (if_pos rfl).symm
      | ⟨1, _⟩ => (if_neg (by decide : ¬(128 : Nat) = 1)).symm)]
  rfl

-- An entry of the payload reads only its own row of the rows' block.
theorem pay_congr_row {k : Nat} (X X' : FVec Ideal ⟨2, ![8192, k]⟩ .f32) (W : FVec Ideal ⟨2, ![128, k]⟩ .f32) (B : FVec Ideal S1x128 .f32)
    (a : Fin 8192) (h : ∀ c : Fin k, X (ix2 a c) = X' (ix2 a c)) (j : Fin 128) :
    pay X W B (ix2 a j) = pay X' W B (ix2 a j) := by
  rw [pay_apply, pay_apply]
  exact congrArg (· + B (ix2 (0 : Fin 1) j)) (Finset.sum_congr rfl fun c _ => by rw [h c])

end Cert.KernelIdeal.Hand

end
-- ==== Proof.KI.BodyLib.lean ====
import proofs.«182238_j40286793237062_1_alg».proof.Proof.Gen.KernelIdeal.Skeleton
import Idealize.ShloMosaic.Lib.Tactic
import Idealize.ShloMosaic.Lib.Pipeline.Value
import Idealize.ShloMosaic.PureOps.Ideal

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

theorem zero_offsets : (![0, 0] : Fin 2 → Nat) = fun _ => 0 := funext fun a => by fin_cases a <;> rfl

theorem inb0 (d : Fin 2 → Nat) : ∀ a, (![0, 0] : Fin 2 → Nat) a + d a ≤ d a := fun a => by
  rw [zero_offsets]; exact (Nat.zero_add _).le

/-- A block index that is zero on every axis puts the block at offset zero. -/
theorem off_zero {n : Nat} {ix sz : Fin n → Nat} (h : ∀ a, ix a = 0) : (fun a => ix a * sz a) = fun _ => 0 :=
  funext fun a => by rw [h a, Nat.zero_mul]

variable {dX dW dB dO : Fin 2 → Nat}

/-- Three whole-block loads, the result block's load, one whole-block store of `pay` of the three, nothing else. -/
noncomputable def linear (hX : 0 < (⟨2, dX⟩ : Shape).numel) (hW : 0 < (⟨2, dW⟩ : Shape).numel) (hB : 0 < (⟨2, dB⟩ : Shape).numel)
    (hO : 0 < (⟨2, dO⟩ : Shape).numel)
    (pay : Vec Ideal ⟨2, dX⟩ .f32 → Vec Ideal ⟨2, dW⟩ .f32 → Vec Ideal ⟨2, dB⟩ .f32 → FVec Ideal ⟨2, dO⟩ .f32)
    (arg1 : Memref sig .tc .vmem ⟨2, dX⟩ .f32) (arg2 : Memref sig .tc .vmem ⟨2, dW⟩ .f32)
    (arg3 : Memref sig .tc .vmem ⟨2, dB⟩ .f32) (arg4 : Memref sig .tc .vmem ⟨2, dO⟩ .f32) :
    Prog (TpuEff nD τ sig (Elt Ideal) Λ₀ .tc) PUnit := do
  let v0 ← Prog.lift (.load arg1 (Rect.unit (s := ⟨2, dX⟩) ![0, 0] dX (inb0 dX)).toLoadRect (View.loadsAt_vmem hX))
  let v2 ← Prog.lift (.load arg2 (Rect.unit (s := ⟨2, dW⟩) ![0, 0] dW (inb0 dW)).toLoadRect (View.loadsAt_vmem hW))
  let v5 ← Prog.lift (.load arg3 (Rect.unit (s := ⟨2, dB⟩) ![0, 0] dB (inb0 dB)).toLoadRect (View.loadsAt_vmem hB))
  let v9 ← Prog.lift (.load arg4 (Rect.unit (s := ⟨2, dO⟩) ![0, 0] dO (inb0 dO)).toLoadRect (View.loadsAt_vmem hO))
  Prog.lift (.store arg4 (Rect.unit (s := ⟨2, dO⟩) ![0, 0] dO (inb0 dO)) (pay v0 v2 v5) Finset.univ (View.stores_vmem_bits_univ hO rfl) (.inl rfl))
  pure ⟨⟩

/-- A whole-block load reads the block's contents; the one whole-block store leaves its payload, whatever the block held. -/
theorem linear_frame (c : Dev nD) (hX : 0 < (⟨2, dX⟩ : Shape).numel) (hW : 0 < (⟨2, dW⟩ : Shape).numel)
    (hB : 0 < (⟨2, dB⟩ : Shape).numel) (hO : 0 < (⟨2, dO⟩ : Shape).numel)
    (pay : Vec Ideal ⟨2, dX⟩ .f32 → Vec Ideal ⟨2, dW⟩ .f32 → Vec Ideal ⟨2, dB⟩ .f32 → FVec Ideal ⟨2, dO⟩ .f32)
    {arg1 : Memref sig .tc .vmem ⟨2, dX⟩ .f32} (harg1 : arg1.IsWhole)
    {arg2 : Memref sig .tc .vmem ⟨2, dW⟩ .f32} (harg2 : arg2.IsWhole)
    {arg3 : Memref sig .tc .vmem ⟨2, dB⟩ .f32} (harg3 : arg3.IsWhole)
    {arg4 : Memref sig .tc .vmem ⟨2, dO⟩ .f32} (harg4 : arg4.IsWhole)
    {Φ Φ' O O' : sProp 𝕄} (hΦ : Φ = Φ') (hO' : O = O') {D D1 D2 D3 : Type} (Xof : D → Vec Ideal ⟨2, dX⟩ .f32) {F0 : D → Vec Ideal ⟨2, dX⟩ .f32}
    (W : Vec Ideal ⟨2, dW⟩ .f32) (B : Vec Ideal ⟨2, dB⟩ .f32) {Yof : D3 → Vec Ideal ⟨2, dO⟩ .f32} {F3 : Vec Ideal ⟨2, dO⟩ .f32 → Vec Ideal ⟨2, dO⟩ .f32}
    (h0 : ∀ d, F0 d = Xof d) (h3 : ∀ d, F3 (pay (Xof d) W B) = pay (Xof d) W B) :
    iprop(Φ ∗ O ∗ (∃ d, owns (c : Thread nD τ) arg1 fullShare (Xof d)) ∗ (∃ _ : D1, owns (c : Thread nD τ) arg2 fullShare W)
        ∗ (∃ _ : D2, owns (c : Thread nD τ) arg3 fullShare B) ∗ (∃ d, owns (c : Thread nD τ) arg4 fullShare (Yof d)))
      ⊢ wp frame (wpE (defs₀ (F := Ideal)) Variants.none c none) Set.univ (linear hX hW hB hO pay arg1 arg2 arg3 arg4)
          fun _ => iprop(Φ' ∗ O' ∗ (∃ d, owns (c : Thread nD τ) arg1 fullShare (F0 d)) ∗ owns (c : Thread nD τ) arg2 fullShare W
            ∗ owns (c : Thread nD τ) arg3 fullShare B ∗ ∃ d, owns (c : Thread nD τ) arg4 fullShare (F3 d)) := by
  subst hΦ; subst hO'
  unfold linear owns
  iintro ⟨HΦ, Ho, ⟨%d0, %f1, %hf1, H1⟩, ⟨%d1, %f2, %hf2, H2⟩, ⟨%d2, %f3, %hf3, H3⟩, ⟨%d3, %f4, -, H4⟩⟩
  subst hf2; subst hf3
  sl_exec
  sl_step
  isplitl [HΦ]; · iexact HΦ
  isplitl [Ho]; · iexact Ho
  isplitl [H1]
  · iexists d0, f1; isplitr; · ipureintro; rw [h0]; exact hf1
    iexact H1
  isplitl [H2]
  · iexists f2; isplitr; · ipureintro; rfl
    iexact H2
  isplitl [H3]
  · iexists f3; isplitr; · ipureintro; rfl
    iexact H3
  iexists pay (Xof d0) _ _, _; isplitr
  swap; · iexact H4
  ipureintro
  rw [h3 d0, ← hf1, View.read_writes_eq_canon _ _ _ fun y => ⟨_, List.mem_singleton_self _, View.mem_set_unit_zero zero_offsets (inb0 dO) y⟩,
    View.canon_unit_zero zero_offsets, View.readAt_eq_ld, View.readAt_eq_ld,
    View.readAt_eq_ld, View.ld_unit_zero zero_offsets, View.ld_unit_zero zero_offsets, View.ld_unit_zero zero_offsets]

end Cert.KernelIdeal.Hand
-- ==== Proof.KI.Body0.lean ====
import proofs.«182238_j40286793237062_1_alg».proof.Proof.KI.Dat0
import proofs.«182238_j40286793237062_1_alg».proof.Proof.KI.Pay
import proofs.«182238_j40286793237062_1_alg».proof.Proof.KI.BodyLib

namespace Cert.KernelIdeal.Hand

open Cert.KernelIdeal Cert.KernelIdeal.Gen
open Idealize.ShloMosaic Idealize.ShloMosaic.TcCoe Idealize.ShloMosaic.ValueIdx
open Idealize.ShloMosaic.Pipeline (Dat Window BodyObligationLoose)

variable (V : (c : Dev nD) → (b : Ref sig .tc) → Buf (Elt Ideal) ((c : Thread nD τ).loc b))

/-- Index (0, 0) of a block as large as the array names the whole array. -/
theorem blk0_1 (c : Dev nD) (t : Fin cfg0.N) : (dat0 (F := Ideal) V c).blockOf 1 t = wblk0 V c :=
  Memref.read_access_unit_zero (Elt Ideal) main_arg6
    (off_zero ((by decide +kernel : ∀ (t : Fin grid0.N) a, win0_1.index t a = 0) t)) _ (V c main_arg6)

theorem before0_1 (c : Dev nD) (t : Fin cfg0.N) (d) :
    (dat0 (F := Ideal) V c).before (1 : Fin 4) t d = wblk0 V c :=
  ((dat0 (F := Ideal) V c).before_in_eq_fetched 1 rfl (fun _ => rfl) (fun _ _ _ => rfl)
    (fun t => (after0_1 V c t).trans (blk0_1 V c t).symm) t d).trans (blk0_1 V c t)

theorem blk0_2 (c : Dev nD) (t : Fin cfg0.N) : (dat0 (F := Ideal) V c).blockOf 2 t = bblk0 V c :=
  Memref.read_access_unit_zero (Elt Ideal) main_v0
    (off_zero ((by decide +kernel : ∀ (t : Fin grid0.N) a, win0_2.index t a = 0) t)) _ (V c main_v0)

theorem before0_2 (c : Dev nD) (t : Fin cfg0.N) (d) :
    (dat0 (F := Ideal) V c).before (2 : Fin 4) t d = bblk0 V c :=
  ((dat0 (F := Ideal) V c).before_in_eq_fetched 2 rfl (fun _ => rfl) (fun _ _ _ => rfl)
    (fun t => (after0_2 V c t).trans (blk0_2 V c t).symm) t d).trans (blk0_2 V c t)

/-- Entry (a, j) of the payload reads row a of the rows' block only, and a row the result keeps is a row the rows' block keeps. -/
theorem cut_pay0 (c : Dev nD) (t : Fin cfg0.N) (d0 : S8192x128.Idx → Elt Ideal .f32) :
    win0_3.cut (grid0.coords t)
        (k0_pay1 (F := Ideal) (win0_0.fill (grid0.coords t) d0 (xblk0 V c t)) (wblk0 V c) (bblk0 V c))
      = win0_3.cut (grid0.coords t) (oblk0 V c t) := by
  funext y
  have hk := (by decide +kernel : ∀ t : Fin grid0.N, win0_3.xsize (grid0.coords t) 0 = win0_0.xsize (grid0.coords t) 0
    ∧ 128 = win0_0.xsize (grid0.coords t) 1) t
  show k0_pay1 _ _ _ (win0_3.xinj _ y) = k0_pay1 (xfill0 V c t) _ _ (win0_3.xinj _ y)
  rw [eq_ix2 (win0_3.xinj _ y)]
  refine pay_congr_row (k := 128) _ _ _ _ _ (fun cc => ?_) _
  have hm : win0_0.moved (grid0.coords t) (ix2 (win0_3.xinj (grid0.coords t) y 0) cc) = true :=
    (win0_0.moved_iff _ _).mpr (Fin.forall_fin_two.mpr ⟨(y 0).isLt.trans_eq hk.1, cc.isLt.trans_eq hk.2⟩)
  unfold xfill0 Window.fill
  rw [dif_pos hm, dif_pos hm]

theorem body_obligation0 (c : Dev nD) :
    BodyObligationLoose (dat0 (F := Ideal) V c) (defs₀ (F := Ideal)) Variants.none () Set.univ := fun t => by
  rw [bigSep_W0, bigSep_W0]
  simp only [(dat0 (F := Ideal) V c).before_fetched 0 t (fetch0_0 t), before0_1 V c t, before0_2 V c t, after0_0, after0_1, after0_2, after0_3]
  exact linear_frame c h_S8192x128 h_S128x128 h_S1x128 h_S8192x128 k0_pay1 (hstage0_0 _) (hstage0_1 _) (hstage0_2 _) (hstage0_3 _)
    rfl rfl ((dat0 (F := Ideal) V c).fetched 0 t) (wblk0 V c) (bblk0 V c)
    (fun d => congrArg _ (win0_0.cut_fill _ _ _)) (fun d => win0_3.fill_congr_cut _ (cut_pay0 V c t d))

end Cert.KernelIdeal.Hand
-- ==== Proof.KI.Block.lean ====
import proofs.«182238_j40286793237062_1_alg».proof.Proof.KI.Pay
import proofs.«182238_j40286793237062_1_alg».proof.Proof.Spec

open scoped BigOperators

noncomputable section

namespace Cert.KernelIdeal.Hand

open Cert.KernelIdeal
open Idealize.ShloMosaic Idealize.ShloMosaic.ValueIdx

-- If row (i 0) of the block X is row (r 0) of x and the two lanes agree, the payload at i is the dense layer of x at r.
theorem pay_eq_lin {n k : Nat} (x : FVec Ideal ⟨2, ![n, k]⟩ .f32) (X : FVec Ideal ⟨2, ![8192, k]⟩ .f32) (W : FVec Ideal ⟨2, ![128, k]⟩ .f32)
    (B : FVec Ideal S1x128 .f32) (i : S8192x128.Idx) (r : (⟨2, ![n, 128]⟩ : Shape).Idx) (h1 : (i 1).val = (r 1).val)
    (hX : ∀ c : Fin k, X (ix2 (i 0) c) = x (ix2 (r 0) c)) :
    pay X W B i = Cert.Spec.lin x W (fun l => B (ix2 (0 : Fin 1) (l 0))) r := by
  obtain ⟨a, l, rfl⟩ : ∃ (a : Fin 8192) (l : Fin 128), i = ix2 a l := ⟨i 0, i 1, eq_ix2 i⟩
  obtain ⟨a', l', rfl⟩ : ∃ (a' : Fin n) (l' : Fin 128), r = ix2 a' l' := ⟨r 0, r 1, eq_ix2 r⟩
  obtain rfl : l = l' := Fin.ext h1
  rw [pay_apply, Cert.Spec.lin_apply]
  exact congrArg (· + _) (Finset.sum_congr rfl fun c _ => congrArg (· * W (ix2 l c)) (hX c))

-- At point t the result's rectangle r₃ (in an n × 128 array) and the rows' rectangle r₀ (in an n × f array) both start at row 8192 t, lane 0, hold the rows of that block inside the array, every lane, and have unit strides.
abbrev BlockAt (n f t : Nat) (r₃ : Rect ⟨2, ![n, 128]⟩) (r₀ : Rect ⟨2, ![n, f]⟩) : Prop :=
  r₃.off 0 = 8192 * t ∧ r₃.off 1 = 0 ∧ r₀.off 0 = 8192 * t ∧ r₀.off 1 = 0
    ∧ r₃.size 0 = min 8192 (n - 8192 * t) ∧ r₃.size 1 = 128 ∧ r₀.size 0 = min 8192 (n - 8192 * t) ∧ r₀.size 1 = f
    ∧ r₃.stride 0 = 1 ∧ r₃.stride 1 = 1 ∧ r₀.stride 0 = 1 ∧ r₀.stride 1 = 1

-- Entry j of the result's block sits at row 8192 t + j 0 of the array, and the filled rows' block holds that row of x there.
theorem block_eq_lin {n f t : Nat} {r₃ : Rect ⟨2, ![n, 128]⟩} {r₀ : Rect ⟨2, ![n, f]⟩} (h : BlockAt n f t r₃ r₀)
    (x : FVec Ideal ⟨2, ![n, f]⟩ .f32) (W : FVec Ideal ⟨2, ![128, f]⟩ .f32) (B : FVec Ideal S1x128 .f32)
    (X : FVec Ideal ⟨2, ![8192, f]⟩ .f32)
    (hX : ∀ (y : (⟨2, ![8192, f]⟩ : Shape).Idx) (hy : ∀ a, (y a).val < r₀.size a), X y = x (r₀.emb fun a => ⟨(y a).val, hy a⟩))
    (j : r₃.shape.Idx) (hj : ∀ a, (j a).val < S8192x128.size a) :
    pay X W B (fun a => ⟨(j a).val, hj a⟩) = Cert.Spec.lin x W (fun l => B (ix2 (0 : Fin 1) (l 0))) (r₃.emb j) := by
  obtain ⟨o30, o31, o00, o01, s30, s31, s00, s01, t30, t31, t00, t01⟩ := h
  have hj0 : (j 0).val < r₃.size 0 := (j 0).isLt
  refine pay_eq_lin x X W B _ _ ?_ fun c => ?_
  · show (j 1).val = r₃.off 1 + r₃.stride 1 * (j 1).val
    rw [o31, t31]; omega
  · have hc := c.isLt
    rw [hX _ (Fin.forall_fin_two.mpr ⟨by show (j 0).val < r₀.size 0; omega, by show c.val < r₀.size 1; omega⟩)]
    refine congrArg x (Shape.idx_ext₂ ?_ ?_)
    · show r₀.off 0 + r₀.stride 0 * (j 0).val = r₃.off 0 + r₃.stride 0 * (j 0).val
      rw [o00, o30, t00, t30]
    · show r₀.off 1 + r₀.stride 1 * c.val = c.val
      rw [o01, t01]; omega

-- Row r of the array lies in the block of point r / 8192.
theorem mem_block {n f : Nat} {r₃ : Rect ⟨2, ![n, 128]⟩} {r₀ : Rect ⟨2, ![n, f]⟩} (i : (⟨2, ![n, 128]⟩ : Shape).Idx)
    (h : BlockAt n f ((i 0).val / 8192) r₃ r₀) : i ∈ r₃.set := by
  obtain ⟨o30, o31, -, -, s30, s31, -, -, t30, t31, -, -⟩ := h
  have hi0 : (i 0).val < n := (i 0).isLt
  have hi1 : (i 1).val < 128 := (i 1).isLt
  exact r₃.mem_set.mpr (Fin.forall_fin_two.mpr ⟨⟨(i 0).val - r₃.off 0, by omega, by rw [t30]; omega⟩,
    ⟨(i 1).val - r₃.off 1, by omega, by rw [t31]; omega⟩⟩)

end Cert.KernelIdeal.Hand

end
-- ==== Proof.KI.Value0.lean ====
import proofs.«182238_j40286793237062_1_alg».proof.Proof.KI.Dat0
import proofs.«182238_j40286793237062_1_alg».proof.Proof.KI.Block

noncomputable section

namespace Cert.KernelIdeal.Hand

open Cert.KernelIdeal Cert.KernelIdeal.Gen
open Idealize.ShloMosaic Idealize.ShloMosaic.TcCoe Idealize.SL.Sem
open Idealize.ShloMosaic.Pipeline (Window)

variable (V : (c : Dev nD) → (b : Ref sig .tc) → Buf (Elt Ideal) ((c : Thread nD τ).loc b))

theorem grid_facts0 : ∀ t : Fin cfg0.N, BlockAt 100000 128 t.val (win0_3.rect t) (win0_0.rect t) :=
  (by decide +kernel : ∀ t : Fin grid0.N, _)

-- Point t's block of the result is block t of the dense layer, since inside the array the filled rows' block agrees with x; and row r lies in the block of point r / 8192.
theorem final0 (c : Dev nD) :
    (dat0 (F := Ideal) V c).arrAt 3 cfg0.N
      = Cert.Spec.lin (n := 100000) (k := 128) (o := 128) (V c main_arg0) (V c main_arg6)
          (fun i => V c main_v0 (ValueIdx.ix2 (0 : Fin 1) (i 0))) :=
  (dat0 (F := Ideal) V c).arrAt_eq_of_cover 3 _
    (fun t _ => funext fun j => block_eq_lin (grid_facts0 t) (V c main_arg0) (V c main_arg6) (V c main_v0) (xfill0 V c t)
      (fun y hy => by unfold xfill0 Window.fill; rw [dif_pos ((win0_0.moved_iff _ _).mpr hy)]; rfl) j _)
    fun i =>
      have hq : (i 0).val / 8192 < cfg0.N := by
        have : (i 0).val < 100000 := (i 0).isLt
        rw [show cfg0.N = 13 from N_0]; omega
      ⟨⟨_, hq⟩, flush0_3 _, by
        show i ∈ ((View.whole main_v1).slice (win0_3.rect ⟨_, hq⟩)).set
        rw [View.set_slice_whole]; exact mem_block i (grid_facts0 ⟨_, hq⟩)⟩

end Cert.KernelIdeal.Hand

end
-- ==== Proof.KI.Body1.lean ====
import proofs.«182238_j40286793237062_1_alg».proof.Proof.KI.Dat1
import proofs.«182238_j40286793237062_1_alg».proof.Proof.KI.Pay
import proofs.«182238_j40286793237062_1_alg».proof.Proof.KI.BodyLib

namespace Cert.KernelIdeal.Hand

open Cert.KernelIdeal Cert.KernelIdeal.Gen
open Idealize.ShloMosaic Idealize.ShloMosaic.TcCoe Idealize.ShloMosaic.ValueIdx
open Idealize.ShloMosaic.Pipeline (Dat Window BodyObligationLoose)

variable (V : (c : Dev nD) → (b : Ref sig .tc) → Buf (Elt Ideal) ((c : Thread nD τ).loc b))

/-- Index (0, 0) of a block as large as the array names the whole array. -/
theorem blk1_1 (c : Dev nD) (t : Fin cfg1.N) : (dat1 (F := Ideal) V c).blockOf 1 t = wblk1 V c :=
  Memref.read_access_unit_zero (Elt Ideal) main_arg8
    (off_zero ((by decide +kernel : ∀ (t : Fin grid1.N) a, win1_1.index t a = 0) t)) _ (V c main_arg8)

theorem before1_1 (c : Dev nD) (t : Fin cfg1.N) (d) :
    (dat1 (F := Ideal) V c).before (1 : Fin 4) t d = wblk1 V c :=
  ((dat1 (F := Ideal) V c).before_in_eq_fetched 1 rfl (fun _ => rfl) (fun _ _ _ => rfl)
    (fun t => (after1_1 V c t).trans (blk1_1 V c t).symm) t d).trans (blk1_1 V c t)

theorem blk1_2 (c : Dev nD) (t : Fin cfg1.N) : (dat1 (F := Ideal) V c).blockOf 2 t = bblk1 V c :=
  Memref.read_access_unit_zero (Elt Ideal) main_v2
    (off_zero ((by decide +kernel : ∀ (t : Fin grid1.N) a, win1_2.index t a = 0) t)) _ (V c main_v2)

theorem before1_2 (c : Dev nD) (t : Fin cfg1.N) (d) :
    (dat1 (F := Ideal) V c).before (2 : Fin 4) t d = bblk1 V c :=
  ((dat1 (F := Ideal) V c).before_in_eq_fetched 2 rfl (fun _ => rfl) (fun _ _ _ => rfl)
    (fun t => (after1_2 V c t).trans (blk1_2 V c t).symm) t d).trans (blk1_2 V c t)

/-- Entry (a, j) of the payload reads row a of the rows' block only, and a row the result keeps is a row the rows' block keeps. -/
theorem cut_pay1 (c : Dev nD) (t : Fin cfg1.N) (d0 : S8192x256.Idx → Elt Ideal .f32) :
    win1_3.cut (grid1.coords t)
        (k1_pay1 (F := Ideal) (win1_0.fill (grid1.coords t) d0 (xblk1 V c t)) (wblk1 V c) (bblk1 V c))
      = win1_3.cut (grid1.coords t) (oblk1 V c t) := by
  funext y
  have hk := (by decide +kernel : ∀ t : Fin grid1.N, win1_3.xsize (grid1.coords t) 0 = win1_0.xsize (grid1.coords t) 0
    ∧ 256 = win1_0.xsize (grid1.coords t) 1) t
  show k1_pay1 _ _ _ (win1_3.xinj _ y) = k1_pay1 (xfill1 V c t) _ _ (win1_3.xinj _ y)
  rw [eq_ix2 (win1_3.xinj _ y)]
  refine pay_congr_row (k := 256) _ _ _ _ _ (fun cc => ?_) _
  have hm : win1_0.moved (grid1.coords t) (ix2 (win1_3.xinj (grid1.coords t) y 0) cc) = true :=
    (win1_0.moved_iff _ _).mpr (Fin.forall_fin_two.mpr ⟨(y 0).isLt.trans_eq hk.1, cc.isLt.trans_eq hk.2⟩)
  unfold xfill1 Window.fill
  rw [dif_pos hm, dif_pos hm]

theorem body_obligation1 (c : Dev nD) :
    BodyObligationLoose (dat1 (F := Ideal) V c) (defs₀ (F := Ideal)) Variants.none () Set.univ := fun t => by
  rw [bigSep_W1, bigSep_W1]
  simp only [(dat1 (F := Ideal) V c).before_fetched 0 t (fetch1_0 t), before1_1 V c t, before1_2 V c t, after1_0, after1_1, after1_2, after1_3]
  exact linear_frame c h_S8192x256 h_S128x256 h_S1x128 h_S8192x128 k1_pay1 (hstage1_0 _) (hstage1_1 _) (hstage1_2 _) (hstage1_3 _)
    rfl rfl ((dat1 (F := Ideal) V c).fetched 0 t) (wblk1 V c) (bblk1 V c)
    (fun d => congrArg _ (win1_0.cut_fill _ _ _)) (fun d => win1_3.fill_congr_cut _ (cut_pay1 V c t d))

end Cert.KernelIdeal.Hand
-- ==== Proof.KI.Value1.lean ====
import proofs.«182238_j40286793237062_1_alg».proof.Proof.KI.Dat1
import proofs.«182238_j40286793237062_1_alg».proof.Proof.KI.Block

noncomputable section

namespace Cert.KernelIdeal.Hand

open Cert.KernelIdeal Cert.KernelIdeal.Gen
open Idealize.ShloMosaic Idealize.ShloMosaic.TcCoe Idealize.SL.Sem
open Idealize.ShloMosaic.Pipeline (Window)

variable (V : (c : Dev nD) → (b : Ref sig .tc) → Buf (Elt Ideal) ((c : Thread nD τ).loc b))

theorem grid_facts1 : ∀ t : Fin cfg1.N, BlockAt 250000 256 t.val (win1_3.rect t) (win1_0.rect t) :=
  (by decide +kernel : ∀ t : Fin grid1.N, _)

-- Point t's block of the result is block t of the dense layer, since inside the array the filled rows' block agrees with x; and row r lies in the block of point r / 8192.
theorem final1 (c : Dev nD) :
    (dat1 (F := Ideal) V c).arrAt 3 cfg1.N
      = Cert.Spec.lin (n := 250000) (k := 256) (o := 128) (V c main_arg1) (V c main_arg8)
          (fun i => V c main_v2 (ValueIdx.ix2 (0 : Fin 1) (i 0))) :=
  (dat1 (F := Ideal) V c).arrAt_eq_of_cover 3 _
    (fun t _ => funext fun j => block_eq_lin (grid_facts1 t) (V c main_arg1) (V c main_arg8) (V c main_v2) (xfill1 V c t)
      (fun y hy => by unfold xfill1 Window.fill; rw [dif_pos ((win1_0.moved_iff _ _).mpr hy)]; rfl) j _)
    fun i =>
      have hq : (i 0).val / 8192 < cfg1.N := by
        have : (i 0).val < 250000 := (i 0).isLt
        rw [show cfg1.N = 31 from N_1]; omega
      ⟨⟨_, hq⟩, flush1_3 _, by
        show i ∈ ((View.whole main_v3).slice (win1_3.rect ⟨_, hq⟩)).set
        rw [View.set_slice_whole]; exact mem_block i (grid_facts1 ⟨_, hq⟩)⟩

end Cert.KernelIdeal.Hand

end
-- ==== Proof.KI.Body2.lean ====
import proofs.«182238_j40286793237062_1_alg».proof.Proof.KI.Dat2
import proofs.«182238_j40286793237062_1_alg».proof.Proof.KI.Pay
import proofs.«182238_j40286793237062_1_alg».proof.Proof.KI.BodyLib

namespace Cert.KernelIdeal.Hand

open Cert.KernelIdeal Cert.KernelIdeal.Gen
open Idealize.ShloMosaic Idealize.ShloMosaic.TcCoe Idealize.ShloMosaic.ValueIdx
open Idealize.ShloMosaic.Pipeline (Dat Window BodyObligationLoose)

variable (V : (c : Dev nD) → (b : Ref sig .tc) → Buf (Elt Ideal) ((c : Thread nD τ).loc b))

/-- Index (0, 0) of a block as large as the array names the whole array. -/
theorem blk2_1 (c : Dev nD) (t : Fin cfg2.N) : (dat2 (F := Ideal) V c).blockOf 1 t = wblk2 V c :=
  Memref.read_access_unit_zero (Elt Ideal) main_arg10
    (off_zero ((by decide +kernel : ∀ (t : Fin grid2.N) a, win2_1.index t a = 0) t)) _ (V c main_arg10)

theorem before2_1 (c : Dev nD) (t : Fin cfg2.N) (d) :
    (dat2 (F := Ideal) V c).before (1 : Fin 4) t d = wblk2 V c :=
  ((dat2 (F := Ideal) V c).before_in_eq_fetched 1 rfl (fun _ => rfl) (fun _ _ _ => rfl)
    (fun t => (after2_1 V c t).trans (blk2_1 V c t).symm) t d).trans (blk2_1 V c t)

theorem blk2_2 (c : Dev nD) (t : Fin cfg2.N) : (dat2 (F := Ideal) V c).blockOf 2 t = bblk2 V c :=
  Memref.read_access_unit_zero (Elt Ideal) main_v4
    (off_zero ((by decide +kernel : ∀ (t : Fin grid2.N) a, win2_2.index t a = 0) t)) _ (V c main_v4)

theorem before2_2 (c : Dev nD) (t : Fin cfg2.N) (d) :
    (dat2 (F := Ideal) V c).before (2 : Fin 4) t d = bblk2 V c :=
  ((dat2 (F := Ideal) V c).before_in_eq_fetched 2 rfl (fun _ => rfl) (fun _ _ _ => rfl)
    (fun t => (after2_2 V c t).trans (blk2_2 V c t).symm) t d).trans (blk2_2 V c t)

/-- Entry (a, j) of the payload reads row a of the rows' block only, and a row the result keeps is a row the rows' block keeps. -/
theorem cut_pay2 (c : Dev nD) (t : Fin cfg2.N) (d0 : S8192x64.Idx → Elt Ideal .f32) :
    win2_3.cut (grid2.coords t)
        (k2_pay1 (F := Ideal) (win2_0.fill (grid2.coords t) d0 (xblk2 V c t)) (wblk2 V c) (bblk2 V c))
      = win2_3.cut (grid2.coords t) (oblk2 V c t) := by
  funext y
  have hk := (by decide +kernel : ∀ t : Fin grid2.N, win2_3.xsize (grid2.coords t) 0 = win2_0.xsize (grid2.coords t) 0
    ∧ 64 = win2_0.xsize (grid2.coords t) 1) t
  show k2_pay1 _ _ _ (win2_3.xinj _ y) = k2_pay1 (xfill2 V c t) _ _ (win2_3.xinj _ y)
  rw [eq_ix2 (win2_3.xinj _ y)]
  refine pay_congr_row (k := 64) _ _ _ _ _ (fun cc => ?_) _
  have hm : win2_0.moved (grid2.coords t) (ix2 (win2_3.xinj (grid2.coords t) y 0) cc) = true :=
    (win2_0.moved_iff _ _).mpr (Fin.forall_fin_two.mpr ⟨(y 0).isLt.trans_eq hk.1, cc.isLt.trans_eq hk.2⟩)
  unfold xfill2 Window.fill
  rw [dif_pos hm, dif_pos hm]

theorem body_obligation2 (c : Dev nD) :
    BodyObligationLoose (dat2 (F := Ideal) V c) (defs₀ (F := Ideal)) Variants.none () Set.univ := fun t => by
  rw [bigSep_W2, bigSep_W2]
  simp only [(dat2 (F := Ideal) V c).before_fetched 0 t (fetch2_0 t), before2_1 V c t, before2_2 V c t, after2_0, after2_1, after2_2, after2_3]
  exact linear_frame c h_S8192x64 h_S128x64 h_S1x128 h_S8192x128 k2_pay1 (hstage2_0 _) (hstage2_1 _) (hstage2_2 _) (hstage2_3 _)
    rfl rfl ((dat2 (F := Ideal) V c).fetched 0 t) (wblk2 V c) (bblk2 V c)
    (fun d => congrArg _ (win2_0.cut_fill _ _ _)) (fun d => win2_3.fill_congr_cut _ (cut_pay2 V c t d))

end Cert.KernelIdeal.Hand
-- ==== Proof.KI.Value2.lean ====
import proofs.«182238_j40286793237062_1_alg».proof.Proof.KI.Dat2
import proofs.«182238_j40286793237062_1_alg».proof.Proof.KI.Block

noncomputable section

namespace Cert.KernelIdeal.Hand

open Cert.KernelIdeal Cert.KernelIdeal.Gen
open Idealize.ShloMosaic Idealize.ShloMosaic.TcCoe Idealize.SL.Sem
open Idealize.ShloMosaic.Pipeline (Window)

variable (V : (c : Dev nD) → (b : Ref sig .tc) → Buf (Elt Ideal) ((c : Thread nD τ).loc b))

theorem grid_facts2 : ∀ t : Fin cfg2.N, BlockAt 25000 64 t.val (win2_3.rect t) (win2_0.rect t) :=
  (by decide +kernel : ∀ t : Fin grid2.N, _)

-- Point t's block of the result is block t of the dense layer, since inside the array the filled rows' block agrees with x; and row r lies in the block of point r / 8192.
theorem final2 (c : Dev nD) :
    (dat2 (F := Ideal) V c).arrAt 3 cfg2.N
      = Cert.Spec.lin (n := 25000) (k := 64) (o := 128) (V c main_arg2) (V c main_arg10)
          (fun i => V c main_v4 (ValueIdx.ix2 (0 : Fin 1) (i 0))) :=
  (dat2 (F := Ideal) V c).arrAt_eq_of_cover 3 _
    (fun t _ => funext fun j => block_eq_lin (grid_facts2 t) (V c main_arg2) (V c main_arg10) (V c main_v4) (xfill2 V c t)
      (fun y hy => by unfold xfill2 Window.fill; rw [dif_pos ((win2_0.moved_iff _ _).mpr hy)]; rfl) j _)
    fun i =>
      have hq : (i 0).val / 8192 < cfg2.N := by
        have : (i 0).val < 25000 := (i 0).isLt
        rw [show cfg2.N = 4 from N_2]; omega
      ⟨⟨_, hq⟩, flush2_3 _, by
        show i ∈ ((View.whole main_v5).slice (win2_3.rect ⟨_, hq⟩)).set
        rw [View.set_slice_whole]; exact mem_block i (grid_facts2 ⟨_, hq⟩)⟩

end Cert.KernelIdeal.Hand

end
-- ==== Proof.KI.Body3.lean ====
import proofs.«182238_j40286793237062_1_alg».proof.Proof.KI.Dat3
import proofs.«182238_j40286793237062_1_alg».proof.Proof.KI.Pay
import proofs.«182238_j40286793237062_1_alg».proof.Proof.KI.BodyLib

namespace Cert.KernelIdeal.Hand

open Cert.KernelIdeal Cert.KernelIdeal.Gen
open Idealize.ShloMosaic Idealize.ShloMosaic.TcCoe Idealize.ShloMosaic.ValueIdx
open Idealize.ShloMosaic.Pipeline (Dat Window BodyObligationLoose)

variable (V : (c : Dev nD) → (b : Ref sig .tc) → Buf (Elt Ideal) ((c : Thread nD τ).loc b))

/-- Index (0, 0) of a block as large as the array names the whole array. -/
theorem blk3_1 (c : Dev nD) (t : Fin cfg3.N) : (dat3 (F := Ideal) V c).blockOf 1 t = wblk3 V c :=
  Memref.read_access_unit_zero (Elt Ideal) main_arg12
    (off_zero ((by decide +kernel : ∀ (t : Fin grid3.N) a, win3_1.index t a = 0) t)) _ (V c main_arg12)

theorem before3_1 (c : Dev nD) (t : Fin cfg3.N) (d) :
    (dat3 (F := Ideal) V c).before (1 : Fin 4) t d = wblk3 V c :=
  ((dat3 (F := Ideal) V c).before_in_eq_fetched 1 rfl (fun _ => rfl) (fun _ _ _ => rfl)
    (fun t => (after3_1 V c t).trans (blk3_1 V c t).symm) t d).trans (blk3_1 V c t)

theorem blk3_2 (c : Dev nD) (t : Fin cfg3.N) : (dat3 (F := Ideal) V c).blockOf 2 t = bblk3 V c :=
  Memref.read_access_unit_zero (Elt Ideal) main_v6
    (off_zero ((by decide +kernel : ∀ (t : Fin grid3.N) a, win3_2.index t a = 0) t)) _ (V c main_v6)

theorem before3_2 (c : Dev nD) (t : Fin cfg3.N) (d) :
    (dat3 (F := Ideal) V c).before (2 : Fin 4) t d = bblk3 V c :=
  ((dat3 (F := Ideal) V c).before_in_eq_fetched 2 rfl (fun _ => rfl) (fun _ _ _ => rfl)
    (fun t => (after3_2 V c t).trans (blk3_2 V c t).symm) t d).trans (blk3_2 V c t)

/-- Entry (a, j) of the payload reads row a of the rows' block only, and a row the result keeps is a row the rows' block keeps. -/
theorem cut_pay3 (c : Dev nD) (t : Fin cfg3.N) (d0 : S8192x128.Idx → Elt Ideal .f32) :
    win3_3.cut (grid3.coords t)
        (k3_pay1 (F := Ideal) (win3_0.fill (grid3.coords t) d0 (xblk3 V c t)) (wblk3 V c) (bblk3 V c))
      = win3_3.cut (grid3.coords t) (oblk3 V c t) := by
  funext y
  have hk := (by decide +kernel : ∀ t : Fin grid3.N, win3_3.xsize (grid3.coords t) 0 = win3_0.xsize (grid3.coords t) 0
    ∧ 128 = win3_0.xsize (grid3.coords t) 1) t
  show k3_pay1 _ _ _ (win3_3.xinj _ y) = k3_pay1 (xfill3 V c t) _ _ (win3_3.xinj _ y)
  rw [eq_ix2 (win3_3.xinj _ y)]
  refine pay_congr_row (k := 128) _ _ _ _ _ (fun cc => ?_) _
  have hm : win3_0.moved (grid3.coords t) (ix2 (win3_3.xinj (grid3.coords t) y 0) cc) = true :=
    (win3_0.moved_iff _ _).mpr (Fin.forall_fin_two.mpr ⟨(y 0).isLt.trans_eq hk.1, cc.isLt.trans_eq hk.2⟩)
  unfold xfill3 Window.fill
  rw [dif_pos hm, dif_pos hm]

theorem body_obligation3 (c : Dev nD) :
    BodyObligationLoose (dat3 (F := Ideal) V c) (defs₀ (F := Ideal)) Variants.none () Set.univ := fun t => by
  rw [bigSep_W3, bigSep_W3]
  simp only [(dat3 (F := Ideal) V c).before_fetched 0 t (fetch3_0 t), before3_1 V c t, before3_2 V c t, after3_0, after3_1, after3_2, after3_3]
  exact linear_frame c h_S8192x128 h_S128x128 h_S1x128 h_S8192x128 k3_pay1 (hstage3_0 _) (hstage3_1 _) (hstage3_2 _) (hstage3_3 _)
    rfl rfl ((dat3 (F := Ideal) V c).fetched 0 t) (wblk3 V c) (bblk3 V c)
    (fun d => congrArg _ (win3_0.cut_fill _ _ _)) (fun d => win3_3.fill_congr_cut _ (cut_pay3 V c t d))

end Cert.KernelIdeal.Hand
-- ==== Proof.KI.Value3.lean ====
import proofs.«182238_j40286793237062_1_alg».proof.Proof.KI.Dat3
import proofs.«182238_j40286793237062_1_alg».proof.Proof.KI.Block

noncomputable section

namespace Cert.KernelIdeal.Hand

open Cert.KernelIdeal Cert.KernelIdeal.Gen
open Idealize.ShloMosaic Idealize.ShloMosaic.TcCoe Idealize.SL.Sem
open Idealize.ShloMosaic.Pipeline (Window)

variable (V : (c : Dev nD) → (b : Ref sig .tc) → Buf (Elt Ideal) ((c : Thread nD τ).loc b))

theorem grid_facts3 : ∀ t : Fin cfg3.N, BlockAt 50000 128 t.val (win3_3.rect t) (win3_0.rect t) :=
  (by decide +kernel : ∀ t : Fin grid3.N, _)

-- Point t's block of the result is block t of the dense layer, since inside the array the filled rows' block agrees with x; and row r lies in the block of point r / 8192.
theorem final3 (c : Dev nD) :
    (dat3 (F := Ideal) V c).arrAt 3 cfg3.N
      = Cert.Spec.lin (n := 50000) (k := 128) (o := 128) (V c main_arg3) (V c main_arg12)
          (fun i => V c main_v6 (ValueIdx.ix2 (0 : Fin 1) (i 0))) :=
  (dat3 (F := Ideal) V c).arrAt_eq_of_cover 3 _
    (fun t _ => funext fun j => block_eq_lin (grid_facts3 t) (V c main_arg3) (V c main_arg12) (V c main_v6) (xfill3 V c t)
      (fun y hy => by unfold xfill3 Window.fill; rw [dif_pos ((win3_0.moved_iff _ _).mpr hy)]; rfl) j _)
    fun i =>
      have hq : (i 0).val / 8192 < cfg3.N := by
        have : (i 0).val < 50000 := (i 0).isLt
        rw [show cfg3.N = 7 from N_3]; omega
      ⟨⟨_, hq⟩, flush3_3 _, by
        show i ∈ ((View.whole main_v7).slice (win3_3.rect ⟨_, hq⟩)).set
        rw [View.set_slice_whole]; exact mem_block i (grid_facts3 ⟨_, hq⟩)⟩

end Cert.KernelIdeal.Hand

end
-- ==== Proof.KI.Body4.lean ====
import proofs.«182238_j40286793237062_1_alg».proof.Proof.KI.Dat4
import proofs.«182238_j40286793237062_1_alg».proof.Proof.KI.Pay
import proofs.«182238_j40286793237062_1_alg».proof.Proof.KI.BodyLib

namespace Cert.KernelIdeal.Hand

open Cert.KernelIdeal Cert.KernelIdeal.Gen
open Idealize.ShloMosaic Idealize.ShloMosaic.TcCoe Idealize.ShloMosaic.ValueIdx
open Idealize.ShloMosaic.Pipeline (Dat Window BodyObligationLoose)

variable (V : (c : Dev nD) → (b : Ref sig .tc) → Buf (Elt Ideal) ((c : Thread nD τ).loc b))

/-- Index (0, 0) of a block as large as the array names the whole array. -/
theorem blk4_1 (c : Dev nD) (t : Fin cfg4.N) : (dat4 (F := Ideal) V c).blockOf 1 t = wblk4 V c :=
  Memref.read_access_unit_zero (Elt Ideal) main_arg14
    (off_zero ((by decide +kernel : ∀ (t : Fin grid4.N) a, win4_1.index t a = 0) t)) _ (V c main_arg14)

theorem before4_1 (c : Dev nD) (t : Fin cfg4.N) (d) :
    (dat4 (F := Ideal) V c).before (1 : Fin 4) t d = wblk4 V c :=
  ((dat4 (F := Ideal) V c).before_in_eq_fetched 1 rfl (fun _ => rfl) (fun _ _ _ => rfl)
    (fun t => (after4_1 V c t).trans (blk4_1 V c t).symm) t d).trans (blk4_1 V c t)

theorem blk4_2 (c : Dev nD) (t : Fin cfg4.N) : (dat4 (F := Ideal) V c).blockOf 2 t = bblk4 V c :=
  Memref.read_access_unit_zero (Elt Ideal) main_v8
    (off_zero ((by decide +kernel : ∀ (t : Fin grid4.N) a, win4_2.index t a = 0) t)) _ (V c main_v8)

theorem before4_2 (c : Dev nD) (t : Fin cfg4.N) (d) :
    (dat4 (F := Ideal) V c).before (2 : Fin 4) t d = bblk4 V c :=
  ((dat4 (F := Ideal) V c).before_in_eq_fetched 2 rfl (fun _ => rfl) (fun _ _ _ => rfl)
    (fun t => (after4_2 V c t).trans (blk4_2 V c t).symm) t d).trans (blk4_2 V c t)

/-- Entry (a, j) of the payload reads row a of the rows' block only, and a row the result keeps is a row the rows' block keeps. -/
theorem cut_pay4 (c : Dev nD) (t : Fin cfg4.N) (d0 : S8192x64.Idx → Elt Ideal .f32) :
    win4_3.cut (grid4.coords t)
        (k4_pay1 (F := Ideal) (win4_0.fill (grid4.coords t) d0 (xblk4 V c t)) (wblk4 V c) (bblk4 V c))
      = win4_3.cut (grid4.coords t) (oblk4 V c t) := by
  funext y
  have hk := (by decide +kernel : ∀ t : Fin grid4.N, win4_3.xsize (grid4.coords t) 0 = win4_0.xsize (grid4.coords t) 0
    ∧ 64 = win4_0.xsize (grid4.coords t) 1) t
  show k4_pay1 _ _ _ (win4_3.xinj _ y) = k4_pay1 (xfill4 V c t) _ _ (win4_3.xinj _ y)
  rw [eq_ix2 (win4_3.xinj _ y)]
  refine pay_congr_row (k := 64) _ _ _ _ _ (fun cc => ?_) _
  have hm : win4_0.moved (grid4.coords t) (ix2 (win4_3.xinj (grid4.coords t) y 0) cc) = true :=
    (win4_0.moved_iff _ _).mpr (Fin.forall_fin_two.mpr ⟨(y 0).isLt.trans_eq hk.1, cc.isLt.trans_eq hk.2⟩)
  unfold xfill4 Window.fill
  rw [dif_pos hm, dif_pos hm]

theorem body_obligation4 (c : Dev nD) :
    BodyObligationLoose (dat4 (F := Ideal) V c) (defs₀ (F := Ideal)) Variants.none () Set.univ := fun t => by
  rw [bigSep_W4, bigSep_W4]
  simp only [(dat4 (F := Ideal) V c).before_fetched 0 t (fetch4_0 t), before4_1 V c t, before4_2 V c t, after4_0, after4_1, after4_2, after4_3]
  exact linear_frame c h_S8192x64 h_S128x64 h_S1x128 h_S8192x128 k4_pay1 (hstage4_0 _) (hstage4_1 _) (hstage4_2 _) (hstage4_3 _)
    rfl rfl ((dat4 (F := Ideal) V c).fetched 0 t) (wblk4 V c) (bblk4 V c)
    (fun d => congrArg _ (win4_0.cut_fill _ _ _)) (fun d => win4_3.fill_congr_cut _ (cut_pay4 V c t d))

end Cert.KernelIdeal.Hand
-- ==== Proof.KI.Value4.lean ====
import proofs.«182238_j40286793237062_1_alg».proof.Proof.KI.Dat4
import proofs.«182238_j40286793237062_1_alg».proof.Proof.KI.Block

noncomputable section

namespace Cert.KernelIdeal.Hand

open Cert.KernelIdeal Cert.KernelIdeal.Gen
open Idealize.ShloMosaic Idealize.ShloMosaic.TcCoe Idealize.SL.Sem
open Idealize.ShloMosaic.Pipeline (Window)

variable (V : (c : Dev nD) → (b : Ref sig .tc) → Buf (Elt Ideal) ((c : Thread nD τ).loc b))

theorem grid_facts4 : ∀ t : Fin cfg4.N, BlockAt 75000 64 t.val (win4_3.rect t) (win4_0.rect t) :=
  (by decide +kernel : ∀ t : Fin grid4.N, _)

-- Point t's block of the result is block t of the dense layer, since inside the array the filled rows' block agrees with x; and row r lies in the block of point r / 8192.
theorem final4 (c : Dev nD) :
    (dat4 (F := Ideal) V c).arrAt 3 cfg4.N
      = Cert.Spec.lin (n := 75000) (k := 64) (o := 128) (V c main_arg4) (V c main_arg14)
          (fun i => V c main_v8 (ValueIdx.ix2 (0 : Fin 1) (i 0))) :=
  (dat4 (F := Ideal) V c).arrAt_eq_of_cover 3 _
    (fun t _ => funext fun j => block_eq_lin (grid_facts4 t) (V c main_arg4) (V c main_arg14) (V c main_v8) (xfill4 V c t)
      (fun y hy => by unfold xfill4 Window.fill; rw [dif_pos ((win4_0.moved_iff _ _).mpr hy)]; rfl) j _)
    fun i =>
      have hq : (i 0).val / 8192 < cfg4.N := by
        have : (i 0).val < 75000 := (i 0).isLt
        rw [show cfg4.N = 10 from N_4]; omega
      ⟨⟨_, hq⟩, flush4_3 _, by
        show i ∈ ((View.whole main_v9).slice (win4_3.rect ⟨_, hq⟩)).set
        rw [View.set_slice_whole]; exact mem_block i (grid_facts4 ⟨_, hq⟩)⟩

end Cert.KernelIdeal.Hand

end
-- ==== Proof.KI.Body5.lean ====
import proofs.«182238_j40286793237062_1_alg».proof.Proof.KI.Dat5
import proofs.«182238_j40286793237062_1_alg».proof.Proof.KI.Pay
import proofs.«182238_j40286793237062_1_alg».proof.Proof.KI.BodyLib

namespace Cert.KernelIdeal.Hand

open Cert.KernelIdeal Cert.KernelIdeal.Gen
open Idealize.ShloMosaic Idealize.ShloMosaic.TcCoe Idealize.ShloMosaic.ValueIdx
open Idealize.ShloMosaic.Pipeline (Dat Window BodyObligationLoose)

variable (V : (c : Dev nD) → (b : Ref sig .tc) → Buf (Elt Ideal) ((c : Thread nD τ).loc b))

/-- Index (0, 0) of a block as large as the array names the whole array. -/
theorem blk5_1 (c : Dev nD) (t : Fin cfg5.N) : (dat5 (F := Ideal) V c).blockOf 1 t = wblk5 V c :=
  Memref.read_access_unit_zero (Elt Ideal) main_arg16
    (off_zero ((by decide +kernel : ∀ (t : Fin grid5.N) a, win5_1.index t a = 0) t)) _ (V c main_arg16)

theorem before5_1 (c : Dev nD) (t : Fin cfg5.N) (d) :
    (dat5 (F := Ideal) V c).before (1 : Fin 4) t d = wblk5 V c :=
  ((dat5 (F := Ideal) V c).before_in_eq_fetched 1 rfl (fun _ => rfl) (fun _ _ _ => rfl)
    (fun t => (after5_1 V c t).trans (blk5_1 V c t).symm) t d).trans (blk5_1 V c t)

theorem blk5_2 (c : Dev nD) (t : Fin cfg5.N) : (dat5 (F := Ideal) V c).blockOf 2 t = bblk5 V c :=
  Memref.read_access_unit_zero (Elt Ideal) main_v10
    (off_zero ((by decide +kernel : ∀ (t : Fin grid5.N) a, win5_2.index t a = 0) t)) _ (V c main_v10)

theorem before5_2 (c : Dev nD) (t : Fin cfg5.N) (d) :
    (dat5 (F := Ideal) V c).before (2 : Fin 4) t d = bblk5 V c :=
  ((dat5 (F := Ideal) V c).before_in_eq_fetched 2 rfl (fun _ => rfl) (fun _ _ _ => rfl)
    (fun t => (after5_2 V c t).trans (blk5_2 V c t).symm) t d).trans (blk5_2 V c t)

/-- Entry (a, j) of the payload reads row a of the rows' block only, and a row the result keeps is a row the rows' block keeps. -/
theorem cut_pay5 (c : Dev nD) (t : Fin cfg5.N) (d0 : S8192x128.Idx → Elt Ideal .f32) :
    win5_3.cut (grid5.coords t)
        (k5_pay1 (F := Ideal) (win5_0.fill (grid5.coords t) d0 (xblk5 V c t)) (wblk5 V c) (bblk5 V c))
      = win5_3.cut (grid5.coords t) (oblk5 V c t) := by
  funext y
  have hk := (by decide +kernel : ∀ t : Fin grid5.N, win5_3.xsize (grid5.coords t) 0 = win5_0.xsize (grid5.coords t) 0
    ∧ 128 = win5_0.xsize (grid5.coords t) 1) t
  show k5_pay1 _ _ _ (win5_3.xinj _ y) = k5_pay1 (xfill5 V c t) _ _ (win5_3.xinj _ y)
  rw [eq_ix2 (win5_3.xinj _ y)]
  refine pay_congr_row (k := 128) _ _ _ _ _ (fun cc => ?_) _
  have hm : win5_0.moved (grid5.coords t) (ix2 (win5_3.xinj (grid5.coords t) y 0) cc) = true :=
    (win5_0.moved_iff _ _).mpr (Fin.forall_fin_two.mpr ⟨(y 0).isLt.trans_eq hk.1, cc.isLt.trans_eq hk.2⟩)
  unfold xfill5 Window.fill
  rw [dif_pos hm, dif_pos hm]

theorem body_obligation5 (c : Dev nD) :
    BodyObligationLoose (dat5 (F := Ideal) V c) (defs₀ (F := Ideal)) Variants.none () Set.univ := fun t => by
  rw [bigSep_W5, bigSep_W5]
  simp only [(dat5 (F := Ideal) V c).before_fetched 0 t (fetch5_0 t), before5_1 V c t, before5_2 V c t, after5_0, after5_1, after5_2, after5_3]
  exact linear_frame c h_S8192x128 h_S128x128 h_S1x128 h_S8192x128 k5_pay1 (hstage5_0 _) (hstage5_1 _) (hstage5_2 _) (hstage5_3 _)
    rfl rfl ((dat5 (F := Ideal) V c).fetched 0 t) (wblk5 V c) (bblk5 V c)
    (fun d => congrArg _ (win5_0.cut_fill _ _ _)) (fun d => win5_3.fill_congr_cut _ (cut_pay5 V c t d))

end Cert.KernelIdeal.Hand
-- ==== Proof.KI.Value5.lean ====
import proofs.«182238_j40286793237062_1_alg».proof.Proof.KI.Dat5
import proofs.«182238_j40286793237062_1_alg».proof.Proof.KI.Block

noncomputable section

namespace Cert.KernelIdeal.Hand

open Cert.KernelIdeal Cert.KernelIdeal.Gen
open Idealize.ShloMosaic Idealize.ShloMosaic.TcCoe Idealize.SL.Sem
open Idealize.ShloMosaic.Pipeline (Window)

variable (V : (c : Dev nD) → (b : Ref sig .tc) → Buf (Elt Ideal) ((c : Thread nD τ).loc b))

theorem grid_facts5 : ∀ t : Fin cfg5.N, BlockAt 150000 128 t.val (win5_3.rect t) (win5_0.rect t) :=
  (by decide +kernel : ∀ t : Fin grid5.N, _)

-- Point t's block of the result is block t of the dense layer, since inside the array the filled rows' block agrees with x; and row r lies in the block of point r / 8192.
theorem final5 (c : Dev nD) :
    (dat5 (F := Ideal) V c).arrAt 3 cfg5.N
      = Cert.Spec.lin (n := 150000) (k := 128) (o := 128) (V c main_arg5) (V c main_arg16)
          (fun i => V c main_v10 (ValueIdx.ix2 (0 : Fin 1) (i 0))) :=
  (dat5 (F := Ideal) V c).arrAt_eq_of_cover 3 _
    (fun t _ => funext fun j => block_eq_lin (grid_facts5 t) (V c main_arg5) (V c main_arg16) (V c main_v10) (xfill5 V c t)
      (fun y hy => by unfold xfill5 Window.fill; rw [dif_pos ((win5_0.moved_iff _ _).mpr hy)]; rfl) j _)
    fun i =>
      have hq : (i 0).val / 8192 < cfg5.N := by
        have : (i 0).val < 150000 := (i 0).isLt
        rw [show cfg5.N = 19 from N_5]; omega
      ⟨⟨_, hq⟩, flush5_3 _, by
        show i ∈ ((View.whole main_v11).slice (win5_3.rect ⟨_, hq⟩)).set
        rw [View.set_slice_whole]; exact mem_block i (grid_facts5 ⟨_, hq⟩)⟩

end Cert.KernelIdeal.Hand

end
-- ==== Proof.KI.Run.lean ====
import proofs.«182238_j40286793237062_1_alg».proof.Proof.KI.Reg
import proofs.«182238_j40286793237062_1_alg».proof.Proof.KI.Body0
import proofs.«182238_j40286793237062_1_alg».proof.Proof.KI.Value0
import proofs.«182238_j40286793237062_1_alg».proof.Proof.KI.Body1
import proofs.«182238_j40286793237062_1_alg».proof.Proof.KI.Value1
import proofs.«182238_j40286793237062_1_alg».proof.Proof.KI.Body2
import proofs.«182238_j40286793237062_1_alg».proof.Proof.KI.Value2
import proofs.«182238_j40286793237062_1_alg».proof.Proof.KI.Body3
import proofs.«182238_j40286793237062_1_alg».proof.Proof.KI.Value3
import proofs.«182238_j40286793237062_1_alg».proof.Proof.KI.Body4
import proofs.«182238_j40286793237062_1_alg».proof.Proof.KI.Value4
import proofs.«182238_j40286793237062_1_alg».proof.Proof.KI.Body5
import proofs.«182238_j40286793237062_1_alg».proof.Proof.KI.Value5
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

local notation "𝕄" => MT nD τ sig Unit (Elt Ideal) ℕ (UR sig nD τ) ℕ

-- Outside the written reference the reshape leaves the launch memory as it is.
theorem Vent_ne (p : Fin 6) {a v : Ref sig .tc} {he hn hx hy} (hp : hops p = [StableHlo.reshape a v he hn hx hy]) (c : Dev nD)
    (r : Ref sig .tc) (h : r ≠ v) : Vent m p c r = m ((c : Thread nD τ).loc r) := by
  unfold Vent; rw [hp]; simp only [StableHlo.after_cons, StableHlo.after_nil]
  exact StableHlo.reshape_result_ne _ _ _ _ _ _ _ h

-- At the written reference it holds the read one's launch contents, recast.
theorem Vent_self (p : Fin 6) {a v : Ref sig .tc} {he hn hx hy} (hp : hops p = [StableHlo.reshape a v he hn hx hy]) (c : Dev nD) :
    Vent m p c v = fun i => he ▸ shapeCast v.ty.shape (m ((c : Thread nD τ).loc a)) hn i := by
  unfold Vent; rw [hp]; simp only [StableHlo.after_cons, StableHlo.after_nil]
  exact StableHlo.reshape_result _ _ _ _ _ _ _

theorem val0 (c : Dev nD) : (dat0 (Vent m 0) c).arrAt 3 cfg0.N
    = Cert.Spec.lin (n := 100000) (k := 128) (o := 128) (m ((c : Thread nD τ).loc main_arg0)) (m ((c : Thread nD τ).loc main_arg6)) (m ((c : Thread nD τ).loc main_arg7)) := by
  refine (final0 (Vent m 0) c).trans ?_
  rw [Vent_ne m 0 rfl c main_arg0 (by decide), Vent_ne m 0 rfl c main_arg6 (by decide)]
  congr 1; funext i
  rw [Vent_self m 0 rfl c]
  exact (ValueIdx.shapeCast_a_1a_apply _ shapeCasts_S128_S1x128 (0 : Fin 1) (i 0)).trans (congrArg _ (ValueIdx.eq_ix1 i).symm)

theorem val1 (c : Dev nD) : (dat1 (Vent m 1) c).arrAt 3 cfg1.N
    = Cert.Spec.lin (n := 250000) (k := 256) (o := 128) (m ((c : Thread nD τ).loc main_arg1)) (m ((c : Thread nD τ).loc main_arg8)) (m ((c : Thread nD τ).loc main_arg9)) := by
  refine (final1 (Vent m 1) c).trans ?_
  rw [Vent_ne m 1 rfl c main_arg1 (by decide), Vent_ne m 1 rfl c main_arg8 (by decide)]
  congr 1; funext i
  rw [Vent_self m 1 rfl c]
  exact (ValueIdx.shapeCast_a_1a_apply _ shapeCasts_S128_S1x128 (0 : Fin 1) (i 0)).trans (congrArg _ (ValueIdx.eq_ix1 i).symm)

theorem val2 (c : Dev nD) : (dat2 (Vent m 2) c).arrAt 3 cfg2.N
    = Cert.Spec.lin (n := 25000) (k := 64) (o := 128) (m ((c : Thread nD τ).loc main_arg2)) (m ((c : Thread nD τ).loc main_arg10)) (m ((c : Thread nD τ).loc main_arg11)) := by
  refine (final2 (Vent m 2) c).trans ?_
  rw [Vent_ne m 2 rfl c main_arg2 (by decide), Vent_ne m 2 rfl c main_arg10 (by decide)]
  congr 1; funext i
  rw [Vent_self m 2 rfl c]
  exact (ValueIdx.shapeCast_a_1a_apply _ shapeCasts_S128_S1x128 (0 : Fin 1) (i 0)).trans (congrArg _ (ValueIdx.eq_ix1 i).symm)

theorem val3 (c : Dev nD) : (dat3 (Vent m 3) c).arrAt 3 cfg3.N
    = Cert.Spec.lin (n := 50000) (k := 128) (o := 128) (m ((c : Thread nD τ).loc main_arg3)) (m ((c : Thread nD τ).loc main_arg12)) (m ((c : Thread nD τ).loc main_arg13)) := by
  refine (final3 (Vent m 3) c).trans ?_
  rw [Vent_ne m 3 rfl c main_arg3 (by decide), Vent_ne m 3 rfl c main_arg12 (by decide)]
  congr 1; funext i
  rw [Vent_self m 3 rfl c]
  exact (ValueIdx.shapeCast_a_1a_apply _ shapeCasts_S128_S1x128 (0 : Fin 1) (i 0)).trans (congrArg _ (ValueIdx.eq_ix1 i).symm)

theorem val4 (c : Dev nD) : (dat4 (Vent m 4) c).arrAt 3 cfg4.N
    = Cert.Spec.lin (n := 75000) (k := 64) (o := 128) (m ((c : Thread nD τ).loc main_arg4)) (m ((c : Thread nD τ).loc main_arg14)) (m ((c : Thread nD τ).loc main_arg15)) := by
  refine (final4 (Vent m 4) c).trans ?_
  rw [Vent_ne m 4 rfl c main_arg4 (by decide), Vent_ne m 4 rfl c main_arg14 (by decide)]
  congr 1; funext i
  rw [Vent_self m 4 rfl c]
  exact (ValueIdx.shapeCast_a_1a_apply _ shapeCasts_S128_S1x128 (0 : Fin 1) (i 0)).trans (congrArg _ (ValueIdx.eq_ix1 i).symm)

theorem val5 (c : Dev nD) : (dat5 (Vent m 5) c).arrAt 3 cfg5.N
    = Cert.Spec.lin (n := 150000) (k := 128) (o := 128) (m ((c : Thread nD τ).loc main_arg5)) (m ((c : Thread nD τ).loc main_arg16)) (m ((c : Thread nD τ).loc main_arg17)) := by
  refine (final5 (Vent m 5) c).trans ?_
  rw [Vent_ne m 5 rfl c main_arg5 (by decide), Vent_ne m 5 rfl c main_arg16 (by decide)]
  congr 1; funext i
  rw [Vent_self m 5 rfl c]
  exact (ValueIdx.shapeCast_a_1a_apply _ shapeCasts_S128_S1x128 (0 : Fin 1) (i 0)).trans (congrArg _ (ValueIdx.eq_ix1 i).symm)

-- The references written before region `k`, two per region, and the results named by then.
abbrev wr (k : ℕ) : List (Ref sig .tc) :=
  [main_v11, main_v10, main_v9, main_v8, main_v7, main_v6, main_v5, main_v4, main_v3, main_v2, main_v1, main_v0].drop (12 - 2 * k)
abbrev rs (k : ℕ) : List Res :=
  ([⟨main_v11, fun c => (dat5 (Vent m 5) c).arrAt 3 cfg5.N⟩, ⟨main_v9, fun c => (dat4 (Vent m 4) c).arrAt 3 cfg4.N⟩,
    ⟨main_v7, fun c => (dat3 (Vent m 3) c).arrAt 3 cfg3.N⟩, ⟨main_v5, fun c => (dat2 (Vent m 2) c).arrAt 3 cfg2.N⟩,
    ⟨main_v3, fun c => (dat1 (Vent m 1) c).arrAt 3 cfg1.N⟩, ⟨main_v1, fun c => (dat0 (Vent m 0) c).arrAt 3 cfg0.N⟩] : List Res).drop (6 - k)

abbrev segs : List (Pipeline.Seg (pcfgs (F := Ideal)) adm (pdats m) () defs₀ Variants.none runL runLv) :=
  [ .host (hsegOf m hostOps0 hostOps0_sub hostOps0_fresh (wr 0) (rs m 0)),
    .region (regOf m 0 launch0 (body_obligation0 _) (fun _ _ => rfl) (fun c => (pdats m 0 c).share_full fun _ => rfl) (fun _ _ => rfl) (fun _ => rfl)
      (A_eq0 _) rfl (wr 0) (rs m 0) (by decide) (by decide) (by decide) 3 (by decide)),
    .host (hsegOf m hostOps1 hostOps1_sub hostOps1_fresh (wr 1) (rs m 1)),
    .region (regOf m 1 launch1 (body_obligation1 _) (fun _ _ => rfl) (fun c => (pdats m 1 c).share_full fun _ => rfl) (fun _ _ => rfl) (fun _ => rfl)
      (A_eq1 _) rfl (wr 1) (rs m 1) (by decide) (by decide) (by decide) 3 (by decide)),
    .host (hsegOf m hostOps2 hostOps2_sub hostOps2_fresh (wr 2) (rs m 2)),
    .region (regOf m 2 launch2 (body_obligation2 _) (fun _ _ => rfl) (fun c => (pdats m 2 c).share_full fun _ => rfl) (fun _ _ => rfl) (fun _ => rfl)
      (A_eq2 _) rfl (wr 2) (rs m 2) (by decide) (by decide) (by decide) 3 (by decide)),
    .host (hsegOf m hostOps3 hostOps3_sub hostOps3_fresh (wr 3) (rs m 3)),
    .region (regOf m 3 launch3 (body_obligation3 _) (fun _ _ => rfl) (fun c => (pdats m 3 c).share_full fun _ => rfl) (fun _ _ => rfl) (fun _ => rfl)
      (A_eq3 _) rfl (wr 3) (rs m 3) (by decide) (by decide) (by decide) 3 (by decide)),
    .host (hsegOf m hostOps4 hostOps4_sub hostOps4_fresh (wr 4) (rs m 4)),
    .region (regOf m 4 launch4 (body_obligation4 _) (fun _ _ => rfl) (fun c => (pdats m 4 c).share_full fun _ => rfl) (fun _ _ => rfl) (fun _ => rfl)
      (A_eq4 _) rfl (wr 4) (rs m 4) (by decide) (by decide) (by decide) 3 (by decide)),
    .host (hsegOf m hostOps5 hostOps5_sub hostOps5_fresh (wr 5) (rs m 5)),
    .region (regOf m 5 launch5 (body_obligation5 _) (fun _ _ => rfl) (fun c => (pdats m 5 c).share_full fun _ => rfl) (fun _ _ => rfl) (fun _ => rfl)
      (A_eq5 _) rfl (wr 5) (rs m 5) (by decide) (by decide) (by decide) 3 (by decide)) ]

-- Every argument holds what it held at launch.
abbrev ArgsKept (mem : (ℓ : Loc nD τ sig) → Buf (Elt Ideal) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)

set_option backward.isDefEq.respectTransparency.types false in
theorem run_main (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v1) = Cert.Spec.lin (n := 100000) (k := 128) (o := 128) (m ((c.tc : Thread nD τ).loc main_arg0)) (m ((c.tc : Thread nD τ).loc main_arg6)) (m ((c.tc : Thread nD τ).loc main_arg7))
      ∧ r.2.mem ((c.tc : Thread nD τ).loc main_v3) = Cert.Spec.lin (n := 250000) (k := 256) (o := 128) (m ((c.tc : Thread nD τ).loc main_arg1)) (m ((c.tc : Thread nD τ).loc main_arg8)) (m ((c.tc : Thread nD τ).loc main_arg9))
      ∧ r.2.mem ((c.tc : Thread nD τ).loc main_v5) = Cert.Spec.lin (n := 25000) (k := 64) (o := 128) (m ((c.tc : Thread nD τ).loc main_arg2)) (m ((c.tc : Thread nD τ).loc main_arg10)) (m ((c.tc : Thread nD τ).loc main_arg11))
      ∧ r.2.mem ((c.tc : Thread nD τ).loc main_v7) = Cert.Spec.lin (n := 50000) (k := 128) (o := 128) (m ((c.tc : Thread nD τ).loc main_arg3)) (m ((c.tc : Thread nD τ).loc main_arg12)) (m ((c.tc : Thread nD τ).loc main_arg13))
      ∧ r.2.mem ((c.tc : Thread nD τ).loc main_v9) = Cert.Spec.lin (n := 75000) (k := 64) (o := 128) (m ((c.tc : Thread nD τ).loc main_arg4)) (m ((c.tc : Thread nD τ).loc main_arg14)) (m ((c.tc : Thread nD τ).loc main_arg15))
      ∧ r.2.mem ((c.tc : Thread nD τ).loc main_v11) = Cert.Spec.lin (n := 150000) (k := 128) (o := 128) (m ((c.tc : Thread nD τ).loc main_arg5)) (m ((c.tc : Thread nD τ).loc main_arg16)) (m ((c.tc : Thread nD τ).loc main_arg17))
      ∧ ArgsKept m r.2.mem c) := by
  refine Pipeline.θ_run_regions_kit_dev (pcfgs (F := Ideal)) adm (pdats m) () cellOf_inj emb₁ defs₀ Variants.none runL runLv m ρ main (fun _ => segs m)
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T m [] (wr 0) (rs m 0))
    (Tₙ := fun c => iprop(∃ V, ⌜Inv m (wr 6) (rs m 6) c V⌝ ∗ StableHlo.held (c : Thread nD τ) (Pipeline.ucRefs τ sig) V ∗ ∃ r, prngReg c r))
    (hch := fun c => ⟨.rfl, .rfl, .rfl, .rfl, .rfl, .rfl, .rfl, .rfl, .rfl, .rfl, .rfl, .rfl,
      show T m [] (wr 6) (rs m 6) c ⊢ iprop((∃ V, ⌜Inv m (wr 6) (rs m 6) c V⌝ ∗ StableHlo.held (c : Thread nD τ) (Pipeline.ucRefs τ sig) V ∗ ∃ r, prngReg c r)
        ∗ ∃ W, owes (c : Thread nD τ) (0 : CellTallies nD τ sig Unit) W) from by
      iintro ⟨%V, %hV, Hh, Hp, HO⟩
      isplitl [Hh Hp]
      · iexists V; isplitr; · ipureintro; exact hV
        isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iexists (V0 m c); isplitr; · ipureintro; exact ⟨fun _ _ => rfl, fun _ h => absurd h List.not_mem_nil⟩
      isplitl [Hh]; · iexact Hh
      isplitl [Hp]; · iexists _; iexact Hp
      iexists ∅; iexact HO)
    (QY := _) (hfin := fun c s' => ?_) (hQ := fun _ h => h)
  iintro ⟨⟨%V, %hV, Hh, -⟩, HSI⟩
  unfold StableHlo.held
  ihave Hr := (pointsTo_read_all (Pipeline.ucRefs τ sig) (fun b => ((c : Thread nD τ).1, b)) V s') $$ [Hh HSI]
  · isplitl [Hh] <;> iassumption
  icases Hr with ⟨%h, HSI⟩
  imodintro
  isplitr
  · ipureintro
    have H := fun (b : Ref sig .tc) hb => h (Proc.devRef .tc b) (Finset.mem_filter.mpr ⟨StableHlo.devRef_mem_tcRefs b, hb⟩)
    obtain ⟨h5, h4, h3, h2, h1, h0⟩ := List.forall_iff_forall_mem.mpr hV.2
    refine ⟨(H _ (by decide)).trans (h0.2.trans (val0 m c)), (H _ (by decide)).trans (h1.2.trans (val1 m c)),
      (H _ (by decide)).trans (h2.2.trans (val2 m c)), (H _ (by decide)).trans (h3.2.trans (val3 m c)),
      (H _ (by decide)).trans (h4.2.trans (val4 m c)), (H _ (by decide)).trans (h5.2.trans (val5 m c)),
      ?_, ?_, ?_, ?_, ?_, ?_, ?_, ?_, ?_, ?_, ?_, ?_, ?_, ?_, ?_, ?_, ?_, ?_⟩ <;>
      exact (H _ (by decide)).trans (hV.1 _ (by decide))
  · iexact HSI

end Cert.KernelIdeal.Hand

end
-- ==== Proof.lean ====
/- Six dense layers y = x · wᵀ + b: a row of y depends on that row of x only, so tiling the rows changes no entry. -/
import proofs.«182238_j40286793237062_1_alg».proof.Defs
import proofs.«182238_j40286793237062_1_alg».proof.Proof.Gen.Kernel
import proofs.«182238_j40286793237062_1_alg».proof.Proof.Gen.KernelIdeal
import proofs.«182238_j40286793237062_1_alg».proof.Proof.Gen.ReferenceIdeal
import proofs.«182238_j40286793237062_1_alg».proof.Proof.Gen.Pre_finite_inputs
import proofs.«182238_j40286793237062_1_alg».proof.Proof.KB.Run
import proofs.«182238_j40286793237062_1_alg».proof.Proof.Ref.Run
import proofs.«182238_j40286793237062_1_alg».proof.Proof.KI.Run
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

/-- The idealized program's frame is its run with the results dropped; so is the reference's. -/
theorem frame_ki : Cert.frame_KernelIdeal := fun m ρ _ =>
  (θ_run Cert.KernelIdeal.defs _ _).mono (fun _ h c => (h c).2.2.2.2.2.2) (Cert.KernelIdeal.Hand.run_main m ρ)

theorem frame_ri : Cert.frame_ReferenceIdeal := fun m ρ _ =>
  (θ_run Cert.ReferenceIdeal.defs _ _).mono (fun _ h c => (h c).2.2.2.2.2.2) (Cert.ReferenceIdeal.Hand.run m ρ)

theorem preserves : Cert.preserves_Kernel_KernelIdeal := trivial

/-- Both runs end with each result array at the dense layer of the same three argument arrays. -/
theorem algebraic : Cert.algebraic_KernelIdeal_ReferenceIdeal := by
  intro m ρ m' ρ' _ hagree
  refine ⟨_, _, _, _, _, _, Cert.KernelIdeal.Hand.run_main m ρ, ?_⟩
  refine (θ_run Cert.ReferenceIdeal.defs _ _).mono (fun _ h c => ?_) (Cert.ReferenceIdeal.Hand.run m' ρ')
  obtain ⟨a0, a1, a2, a3, a4, a5, a6, a7, a8, a9, a10, a11, a12, a13, a14, a15, a16, a17⟩ := hagree c
  obtain ⟨h0, h1, h2, h3, h4, h5, hargs⟩ := h c
  refine ⟨h0.trans ?_, h1.trans ?_, h2.trans ?_, h3.trans ?_, h4.trans ?_, h5.trans ?_, hargs⟩
  · rw [a0, a6, a7]
  · rw [a1, a8, a9]
  · rw [a2, a10, a11]
  · rw [a3, a12, a13]
  · rw [a4, a14, a15]
  · rw [a5, a16, a17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
